-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1024x64 : Shape := ⟨2, ![1024, 64]⟩
abbrev S1024x1 : Shape := ⟨2, ![1024, 1]⟩
abbrev S1x1024 : Shape := ⟨2, ![1, 1024]⟩
abbrev S5000x1024 : Shape := ⟨2, ![5000, 1024]⟩
abbrev S1x2 : Shape := ⟨2, ![1, 2]⟩
abbrev S1024x2 : Shape := ⟨2, ![1024, 2]⟩

abbrev nBuf : Space → Nat
  | .hbm => 109
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x1, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x1, .i32⟩
  | .hbm, ⟨106, _⟩ => ⟨S1024x64, .f32⟩
  | .hbm, ⟨107, _⟩ => ⟨S1x2, .f32⟩
  | .hbm, ⟨108, _⟩ => ⟨S1024x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S1024x64, .f32⟩
  | .local _ .vmem, ⟨47, _⟩ => ⟨S1024x1, .f32⟩
  | .local _ .vmem, ⟨48, _⟩ => ⟨S1024x64, .f32⟩
  | .local _ .vmem, ⟨49, _⟩ => ⟨S64x2, .f32⟩
  | .local _ .vmem, ⟨50, _⟩ => ⟨S1x2, .f32⟩
  | .local _ .vmem, ⟨51, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc7_sem0_0 : DmaSem sig := 47
abbrev cc7_sem1_0 : DmaSem sig := 48
abbrev cc7_sem2_0 : DmaSem sig := 49
abbrev cc7_sem3_0 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1024x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S64x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x1024_d1_w32 : S1x1024.Iotas .tc 32 [1]
  broadcasts_S5000x1_S5000x1024 : S5000x1.Broadcasts S5000x1024
  broadcasts_S1x1024_S5000x1024 : S1x1024.Broadcasts S5000x1024
  natLt_1_32 : 1 < 32
  shapeCasts_S1024x64_S1024x64 : S1024x64.ShapeCasts S1024x64
  broadcasts_S1024x1_S1024x64 : S1024x1.Broadcasts S1024x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x1024_S5000x64_S1024x64_0_0_1_1_n_n_wf : DotDims.WF S5000x1024 S5000x64 S1024x64 [0] [0] [1] [1] [] []
  dot_S5000x1024_S5000x1_S1024x1_0_0_1_1_n_n_wf : DotDims.WF S5000x1024 S5000x1 S1024x1 [0] [0] [1] [1] [] []
  dot_S1024x64_S64x2_S1024x2_1_0_0_1_n_n_wf : DotDims.WF S1024x64 S64x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S1024x64.size a
  hwx6_2 : ∀ i : grid6.Coords, EltTy.bits .f32 = 32 ∨ (Rect.block (s := S1024x64) S1024x64.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S1024x64.size a
  hwx7_0 : ∀ i : grid7.Coords, EltTy.bits .f32 = 32 ∨ (Rect.block (s := S1024x64) S1024x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x2.size a ≤ S64x2.size a
  hwx7_1 : ∀ i : grid7.Coords, EltTy.bits .f32 = 32 ∨ (Rect.block (s := S64x2) S64x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1024x2.size a ≤ S1024x2.size a
  hwx7_3 : ∀ i : grid7.Coords, EltTy.bits .f32 = 32 ∨ (Rect.block (s := S1024x2) S1024x2.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x1024_S5000x64_S1024x64_0_0_1_1_n_n : DotDims S5000x1024 S5000x64 S1024x64 where
  lhsContracting := [0]
  rhsContracting := [0]
  lhsNonContracting := [1]
  rhsNonContracting := [1]
  lhsBatch := []
  rhsBatch := []
  wf := dot_S5000x1024_S5000x64_S1024x64_0_0_1_1_n_n_wf
def dot_S5000x1024_S5000x1_S1024x1_0_0_1_1_n_n : DotDims S5000x1024 S5000x1 S1024x1 where
  lhsContracting := [0]
  rhsContracting := [0]
  lhsNonContracting := [1]
  rhsNonContracting := [1]
  lhsBatch := []
  rhsBatch := []
  wf := dot_S5000x1024_S5000x1_S1024x1_0_0_1_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v76) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1024x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S1024x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S1024x2.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1024 : Shape := ⟨1, ![1024]⟩
abbrev S1024x64 : Shape := ⟨2, ![1024, 64]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1600000x1, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S1024, .f32⟩
  | 1 => ⟨S100000x1, .i32⟩
  | 2 => ⟨S1024, .f32⟩
  | 3 => ⟨S_, .f32⟩
  | 4 => ⟨S1024x64, .f32⟩
  | 5 => ⟨S100000x1, .i32⟩
  | 6 => ⟨S1024x64, .f32⟩
  | 7 => ⟨S_, .f32⟩
  | 8 => ⟨S1024, .f32⟩
  | 9 => ⟨S1024, .f32⟩
  | 10 => ⟨S1024x1, .f32⟩
  | 11 => ⟨S1024x64, .f32⟩
  | 12 => ⟨S1024x64, .f32⟩
  | 13 => ⟨S1024x2, .f32⟩
  | 14 => ⟨S1x2, .f32⟩
  | 15 => ⟨S1024x2, .f32⟩
  | 16 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_c_11 : Ref sig .tc := ⟨.hbm, 99, rfl⟩
abbrev main_v71 : Ref sig .tc := ⟨.hbm, 100, rfl⟩
abbrev main_v72 : Ref sig .tc := ⟨.hbm, 101, rfl⟩
abbrev main_c_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_cst : Ref sig .tc := ⟨.hbm, 122, rfl⟩
abbrev main_call2_v0 : Ref sig .tc := ⟨.hbm, 123, rfl⟩
abbrev main_v91 : Ref sig .tc := ⟨.hbm, 124, rfl⟩
abbrev main_cst_14 : Ref sig .tc := ⟨.hbm, 125, rfl⟩
abbrev main_v92 : Ref sig .tc := ⟨.hbm, 126, rfl⟩
abbrev main_cst_15 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_16 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024 : S_.BroadcastsInDim S1024 (![] : Fin 0 → Fin S1024.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  dot_S1024x64_S64x2_S1024x2_1_0_0_1_n_n_wf : DotDims.WF S1024x64 S64x2 S1024x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

class Facts : Prop extends Facts₀ where

variable [Facts]
-- ==== Proof.FrB.Rg0.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

def out0 (x0 : Vec F S5000x128 .f32) (x1 : Vec F S128x64 .f32) : Vec F S5000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0 (iblk0 V c 0 t) (iblk0 V c 1 t) := by dsimp only [dat0]

theorem before0 (c t) : (∀ d, (dat0 V c).before 0 t d = iblk0 V c 0 t) ∧ ∀ d, (dat0 V c).before 1 t d = iblk0 V c 1 t := by
  refine ⟨?_, ?_⟩ <;> exact fun d =>
    ((dat0 V c).before_in_eq_fetched _ rfl (fun _ => rfl) (fun _ _ _ => rfl) (fun _ => rfl) t d).trans rfl

/-- The body reads its inputs whole and stores one payload over the whole output; whatever else is held (P, Q) comes back untouched. -/
theorem sound_kernel0 (c : Dev nD) {i arg0 harg0 arg1 harg1 arg2 harg2} {x0 : Vec F S5000x128 .f32} {x1 : Vec F S128x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc0__matmul_kernel i arg0 harg0 arg1 harg1 arg2 harg2) fun _ =>
        iprop(P ∗ Q ∗ owns c.tc arg0 fullShare x0 ∗ owns c.tc arg1 fullShare x1 ∗ owns c.tc arg2 fullShare (out0 x0 x1)) := by
  simp only [cc0__matmul_kernel_eq_skeleton]; unfold cc0__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation0 (c : Dev nD) : BodyObligation (dat0 (F := F) V c) (defs₀ (F := F)) Variants.none () Set.univ := fun t => by
  rw [bigSep_W0, bigSep_W0]
  simp only [before0 V c t, after0_2]
  sl_whnfR [defs₀, Defs.onTc]
  exact sound_kernel0 c

end Regions

end Cert.Kernel.Fr

end
-- ==== Proof.FrB.Rg1.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0

def out1 (x0 x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1 (iblk1 V c 0 t) (iblk1 V c 1 t) (iblk1 V c 2 t) (iblk1 V c 3 t) := by dsimp only [dat1]

theorem before1 (c t) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> exact fun d =>
    ((dat1 V c).before_in_eq_fetched _ rfl (fun _ => rfl) (fun _ _ _ => rfl) (fun _ => rfl) t d).trans rfl

/-- The body reads its inputs whole and stores one payload over the whole output; whatever else is held (P, Q) comes back untouched. -/
theorem sound_kernel1 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc1__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out1 x0 x1 x2 x3)) := by
  simp only [cc1__combine_kernel_eq_skeleton]; unfold cc1__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation1 (c : Dev nD) : BodyObligation (dat1 (F := F) V c) (defs₀ (F := F)) Variants.none () Set.univ := fun t => by
  rw [bigSep_W1, bigSep_W1]
  simp only [before1 V c t, after1_4]
  sl_whnfR [defs₀, Defs.onTc]
  exact sound_kernel1 c

end Regions

end Cert.Kernel.Fr

end
-- ==== Proof.FrB.Rg2.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x64 := Rect.unit (s := S5000x64) ![0, 0] S5000x64.size inb_S5000x64_S5000x64_0_0

def out2 (x0 : Vec F S5000x64 .f32) (x1 : Vec F S64x64 .f32) : Vec F S5000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2 (iblk2 V c 0 t) (iblk2 V c 1 t) := by dsimp only [dat2]

theorem before2 (c t) : (∀ d, (dat2 V c).before 0 t d = iblk2 V c 0 t) ∧ ∀ d, (dat2 V c).before 1 t d = iblk2 V c 1 t := by
  refine ⟨?_, ?_⟩ <;> exact fun d =>
    ((dat2 V c).before_in_eq_fetched _ rfl (fun _ => rfl) (fun _ _ _ => rfl) (fun _ => rfl) t d).trans rfl

/-- The body reads its inputs whole and stores one payload over the whole output; whatever else is held (P, Q) comes back untouched. -/
theorem sound_kernel2 (c : Dev nD) {i arg0 harg0 arg1 harg1 arg2 harg2} {x0 : Vec F S5000x64 .f32} {x1 : Vec F S64x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc2__matmul_kernel i arg0 harg0 arg1 harg1 arg2 harg2) fun _ =>
        iprop(P ∗ Q ∗ owns c.tc arg0 fullShare x0 ∗ owns c.tc arg1 fullShare x1 ∗ owns c.tc arg2 fullShare (out2 x0 x1)) := by
  simp only [cc2__matmul_kernel_eq_skeleton]; unfold cc2__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation2 (c : Dev nD) : BodyObligation (dat2 (F := F) V c) (defs₀ (F := F)) Variants.none () Set.univ := fun t => by
  rw [bigSep_W2, bigSep_W2]
  simp only [before2 V c t, after2_2]
  sl_whnfR [defs₀, Defs.onTc]
  exact sound_kernel2 c

end Regions

end Cert.Kernel.Fr

end
-- ==== Proof.FrB.Rg3.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

def out3 (x0 x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3 (iblk3 V c 0 t) (iblk3 V c 1 t) (iblk3 V c 2 t) (iblk3 V c 3 t) := by dsimp only [dat3]

theorem before3 (c t) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact fun d =>
    ((dat3 V c).before_in_eq_fetched _ rfl (fun _ => rfl) (fun _ _ _ => rfl) (fun _ => rfl) t d).trans rfl

/-- The body reads its inputs whole and stores one payload over the whole output; whatever else is held (P, Q) comes back untouched. -/
theorem sound_kernel3 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc3__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out3 x0 x1 x2 x3)) := by
  simp only [cc3__combine_kernel_eq_skeleton]; unfold cc3__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation3 (c : Dev nD) : BodyObligation (dat3 (F := F) V c) (defs₀ (F := F)) Variants.none () Set.univ := fun t => by
  rw [bigSep_W3, bigSep_W3]
  simp only [before3 V c t, after3_4]
  sl_whnfR [defs₀, Defs.onTc]
  exact sound_kernel3 c

end Regions

end Cert.Kernel.Fr

end
-- ==== Proof.FrB.Rg4.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S5000x64 := Rect.unit (s := S5000x64) ![0, 0] S5000x64.size inb_S5000x64_S5000x64_0_0

def out4 (x0 : Vec F S5000x64 .f32) (x1 : Vec F S64x64 .f32) : Vec F S5000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4 (iblk4 V c 0 t) (iblk4 V c 1 t) := by dsimp only [dat4]

theorem before4 (c t) : (∀ d, (dat4 V c).before 0 t d = iblk4 V c 0 t) ∧ ∀ d, (dat4 V c).before 1 t d = iblk4 V c 1 t := by
  refine ⟨?_, ?_⟩ <;> exact fun d =>
    ((dat4 V c).before_in_eq_fetched _ rfl (fun _ => rfl) (fun _ _ _ => rfl) (fun _ => rfl) t d).trans rfl

/-- The body reads its inputs whole and stores one payload over the whole output; whatever else is held (P, Q) comes back untouched. -/
theorem sound_kernel4 (c : Dev nD) {i arg0 harg0 arg1 harg1 arg2 harg2} {x0 : Vec F S5000x64 .f32} {x1 : Vec F S64x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc4__matmul_kernel i arg0 harg0 arg1 harg1 arg2 harg2) fun _ =>
        iprop(P ∗ Q ∗ owns c.tc arg0 fullShare x0 ∗ owns c.tc arg1 fullShare x1 ∗ owns c.tc arg2 fullShare (out4 x0 x1)) := by
  simp only [cc4__matmul_kernel_eq_skeleton]; unfold cc4__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation4 (c : Dev nD) : BodyObligation (dat4 (F := F) V c) (defs₀ (F := F)) Variants.none () Set.univ := fun t => by
  rw [bigSep_W4, bigSep_W4]
  simp only [before4 V c t, after4_2]
  sl_whnfR [defs₀, Defs.onTc]
  exact sound_kernel4 c

end Regions

end Cert.Kernel.Fr

end
-- ==== Proof.FrB.Rg5.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S5000x1 := Rect.unit (s := S5000x1) ![0, 0] S5000x1.size inb_S5000x1_S5000x1_0_0
abbrev r5_2 : Rect S1x64 := Rect.unit (s := S1x64) ![0, 0] S1x64.size inb_S1x64_S1x64_0_0

def out5 (x0 x1 : Vec F S5000x64 .f32) (x2 : Vec F S5000x1 .f32) (x3 : Vec F S1x64 .f32) : Vec F S5000x64 .f32 :=
  View.canon [⟨r5_0, k5_pay1 (View.ld x0 r5_0) (View.ld x1 r5_0) (View.ld x2 r5_1) (View.ld x3 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5 (iblk5 V c 0 t) (iblk5 V c 1 t) (iblk5 V c 2 t) (iblk5 V c 3 t) := by dsimp only [dat5]

theorem before5 (c t) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> exact fun d =>
    ((dat5 V c).before_in_eq_fetched _ rfl (fun _ => rfl) (fun _ _ _ => rfl) (fun _ => rfl) t d).trans rfl

/-- The body reads its inputs whole and stores one payload over the whole output; whatever else is held (P, Q) comes back untouched. -/
theorem sound_kernel5 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc5__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out5 x0 x1 x2 x3)) := by
  simp only [cc5__combine_kernel_eq_skeleton]; unfold cc5__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation5 (c : Dev nD) : BodyObligation (dat5 (F := F) V c) (defs₀ (F := F)) Variants.none () Set.univ := fun t => by
  rw [bigSep_W5, bigSep_W5]
  simp only [before5 V c t, after5_4]
  sl_whnfR [defs₀, Defs.onTc]
  exact sound_kernel5 c

end Regions

end Cert.Kernel.Fr

end
-- ==== Proof.FrB.Rg6Runs.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The body's first condition, "the grid coordinate is 0": it holds at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 20 = 0 :=
  (by decide +kernel : ∀ t : Fin grid6.N, cond6_0 (grid6.coords t) ↔ t.val % 20 = 0)

/-- Its second, "the grid coordinate is 19": at the last point only. -/
abbrev cond6_1 (i : grid6.Coords) : Prop := (Scalar.cmpi .ne (Scalar.extui (Scalar.cmpi .eq (BitVec.ofNat 32 (i 0).val) 19#32)) 0#32) = 1#1
theorem hcond6_1 : ∀ t : Fin cfg6.N, cond6_1 (grid6.coords t) ↔ t.val % 20 = 19 :=
  (by decide +kernel : ∀ t : Fin grid6.N, cond6_1 (grid6.coords t) ↔ t.val % 20 = 19)

/-- The counts scratch: the body's fourth operand. -/
abbrev scM6_0 : Memref sig .tc .vmem S1024x1 .f32 := Memref.whole cc6_scratch0

/-- The region invariant with the counts scratch split off the scoped buffers. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Fr

end
-- ==== Proof.FrB.Rg6.lean ====
import proofs.«415254_j79637283602865_2_alg».proof.Proof.FrB.Rg6Runs
import Idealize.ShloMosaic.Lib.Pipeline.Value
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz6 : (![0, 0] : Fin 2 → Nat) = fun _ => 0 := funext fun a => by fin_cases a <;> rfl

section Whole
variable {S : Shape} {e : EltTy} {κ : Kind} {sp : Space} (v : View sig κ sp S e) {off : Fin S.rank → Nat} (h : off = fun _ => 0)
  (inb : ∀ a, off a + S.size a ≤ S.size a) (w : S.Idx → Elt F e) (L : List (View.Piece (Elt F) S e))
include h

/-- The last store, through the whole buffer, covers every earlier one. -/
theorem cover_whole (y : S.Idx) : ∃ p ∈ (⟨Rect.unit off S.size inb, w⟩ :: L : List (View.Piece (Elt F) S e)), y ∈ p.1.set :=
  ⟨_, List.mem_cons_self .., View.mem_set_unit_zero h inb y⟩

/-- So the buffer reads as its payload, -/
theorem read_whole (f : v.ty.Contents (Elt F)) : v.read (Elt F) (v.writes (Elt F) f (⟨Rect.unit off S.size inb, w⟩ :: L)) = w :=
  (View.read_writes_eq_canon v f _ (cover_whole h inb w L)).trans (View.canon_cons_unit_zero h inb w L)

/-- and so does a load of the whole buffer after it. -/
theorem readCov_whole : v.readCov (⟨Rect.unit off S.size inb, w⟩ :: L) (Rect.unit off S.size inb).toLoadRect = w := by
  rw [View.readCov_eq_canon_ld _ _ _ (cover_whole h inb w L), View.canon_cons_unit_zero h, View.ld_unit_zero h]
end Whole

/-- What a point leaves in the output block and in the counts, from what it finds there (`p`): the first point starts
    both from zeros, every point adds its tile's sums and counts, the last then divides the sums by the counts. -/
def res6 (first last : Prop) [Decidable first] [Decidable last] (x0 : Vec F S5000x64 .f32) (x1 : Vec F S5000x1 .i32)
    (p : Vec F S1024x64 .f32 × Vec F S1024x1 .f32) : Vec F S1024x64 .f32 × Vec F S1024x1 .f32 :=
  (fun a s => (if last then k6_pay6 a s else a, s)) (k6_pay4 x1 x0 (if first then k6_pay1 else p.1)) (k6_pay5 x1 (if first then k6_pay2 else p.2))

set_option maxHeartbeats 4000000 in
/-- On whole buffers the body runs, whichever of its two conditionals it takes, to the inputs as they were and the
    output block and the counts at `res6` of what they held. -/
theorem run6 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S1024x64 .f32) (harg3 : arg3.IsWhole) (arg4 : Memref sig .tc .vmem S1024x1 .f32) (harg4 : arg4.IsWhole)
    {first last : Prop} [Decidable first] [Decidable last] (h0 : cond6_0 i ↔ first) (h1 : cond6_1 i ↔ last)
    (x0 : Vec F S5000x64 .f32) (x1 : Vec F S5000x1 .i32) (p : Vec F S1024x64 .f32 × Vec F S1024x1 .f32) (E : Set ℕ) (K : PUnit → sProp 𝕄) :
    iprop(owns (c : Thread nD τ) arg1 fullShare x0 ∗ owns (c : Thread nD τ) arg2 fullShare x1 ∗ owns (c : Thread nD τ) arg3 fullShare p.1 ∗ owns (c : Thread nD τ) arg4 fullShare p.2
        ∗ (iprop(owns (c : Thread nD τ) arg1 fullShare x0 ∗ owns (c : Thread nD τ) arg2 fullShare x1 ∗ owns (c : Thread nD τ) arg3 fullShare (res6 first last x0 x1 p).1 ∗ owns (c : Thread nD τ) arg4 fullShare (res6 first last x0 x1 p).2) -∗ K ⟨⟩))
      ⊢ wp frame (wpE (defs₀ (F := F)) Variants.none c none) E (cc6__pool_kernel i arg1 harg1 arg2 harg2 arg3 harg3 arg4 harg4) K := by
  unfold res6 owns
  by_cases hF : first <;> by_cases hL : last <;> simp only [hF, hL, ↓reduceIte] <;>
  ( simp only [cc6__pool_kernel_eq_skeleton]; unfold cc6__pool_kernel_skel
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact h0.mpr hF | exact mt h0.mp hF | exact h1.mpr hL | exact mt h1.mp hL)
    sl_step
    iapply Hk
    isplitl [H0]; · iexists _; iframe H0; ipureintro; exact harg1.read_unread _
    isplitl [H1]; · iexists _; iframe H1; ipureintro; exact harg2.read_unread _
    isplitl [H2] <;>
    ( iexists _; iframe; ipureintro
      try sl_unfold_run_names
      rw [read_whole _ hz6]
      simp only [View.readAt_eq_ld, readCov_whole (S := S1024x64) _ hz6, readCov_whole (S := S1024x1) _ hz6, harg1.read_unread, harg2.read_unread, harg3.read_unread, harg4.read_unread, View.ld_unit_zero (S := S5000x64) hz6, View.ld_unit_zero (S := S5000x1) hz6, View.ld_unit_zero (S := S1024x64) hz6, View.ld_unit_zero (S := S1024x1) hz6] ) )

/-- The first point's result does not depend on what it finds. -/
theorem res6_first {first last : Prop} [Decidable first] [Decidable last] (hF : first) (x0 : Vec F S5000x64 .f32) (x1 : Vec F S5000x1 .i32)
    (p q : Vec F S1024x64 .f32 × Vec F S1024x1 .f32) : res6 first last x0 x1 p = res6 first last x0 x1 q := by
  unfold res6; rw [if_pos hF, if_pos hF, if_pos hF, if_pos hF]

/-- What the output block and the counts hold after the body at position `n`: the point's result from what the point
    before left (the first point's from anything). -/
def outsAt6 (c : Dev nD) : (n : ℕ) → n < cfg6.N → Vec F S1024x64 .f32 × Vec F S1024x1 .f32
  | 0, h => res6 (0 % 20 = 0) (0 % 20 = 19) (iblk6 V c 0 ⟨0, h⟩) (iblk6 V c 1 ⟨0, h⟩) (k6_pay1, k6_pay2)
  | n + 1, h => res6 ((n + 1) % 20 = 0) ((n + 1) % 20 = 19) (iblk6 V c 0 ⟨n + 1, h⟩) (iblk6 V c 1 ⟨n + 1, h⟩) (outsAt6 c n (Nat.lt_of_succ_lt h))

/-- At any point: its result from `p`, where `p` is what the point before left unless the point is the first. -/
theorem outsAt6_eq (c : Dev nD) (t : Fin cfg6.N) (p : Vec F S1024x64 .f32 × Vec F S1024x1 .f32)
    (hp : ∀ hn : t.val ≠ 0, p = outsAt6 V c (t.val - 1) (Nat.lt_of_le_of_lt (Nat.sub_le _ _) t.isLt)) :
    res6 (t.val % 20 = 0) (t.val % 20 = 19) (iblk6 V c 0 t) (iblk6 V c 1 t) p = outsAt6 V c t.val t.isLt := by
  obtain ⟨_ | n, h⟩ := t
  · exact res6_first (Nat.zero_mod _) ..
  · rw [hp (Nat.succ_ne_zero n)]; rfl

/-- The scoped buffers other than the counts scratch, unopened. -/
abbrev restBut6 (c : Dev nD) : sProp 𝕄 :=
  Pipeline.scopedRestBut (Ix := Unit) (Name := ℕ) (U := UR sig nD τ) (Lvl := ℕ) (Val := Elt F) spec6 c [cc6_scratch0]

/-- The region invariant before position `n`: the counts scratch at what the point before left (before the first point
    at anything), the other scoped buffers unopened, the generator register at some state. -/
def PhiS6 (c : Dev nD) (n : ℕ) (h : n ≤ cfg6.N) : sProp 𝕄 :=
  iprop(iprop(iprop(∃ ds, ⌜∀ hn : n ≠ 0, ds = (outsAt6 V c (n - 1) (by omega)).2⌝ ∗ owns (c : Thread nD τ) scM6_0 fullShare ds) ∗ restBut6 c) ∗ (∃ r, prngReg c r))

/-- The proof data of the pool's pipeline on core `c`: the arrays as the region finds them; after the body at point
    `t` each input's buffer at its block and the output's at `outsAt6`'s first component; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := rfl
theorem after6_2 (c : Dev nD) (t : Fin cfg6.N) : (dat6 V c).after 2 t = (outsAt6 V c t.val t.isLt).1 := rfl
theorem Phi6_eq (c : Dev nD) (t : Fin (cfg6.N + 1)) : (dat6 V c).Φ t = PhiS6 V c t.val (Nat.le_of_lt_succ t.isLt) := rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2_pos (c : Dev nD) (t : Fin cfg6.N) (h0 : t.val ≠ 0) (d) :
    (dat6 V c).before 2 t d = (outsAt6 V c (t.val - 1) (Nat.lt_of_le_of_lt (Nat.sub_le _ _) t.isLt)).1 := by
  have hN : t.val < 20 := lt_of_lt_of_eq t.isLt (show cfg6.N = 20 from N_6)
  rw [Dat.before_out_kept _ 2 rfl t h0 (Bool.eq_false_iff.mpr fun h => by have := (flush6_2 _).mp h; dsimp only at this; omega)
    (fun _ => rfl) (fun _ _ => rfl)]
  rfl

def bodyPre6 (c : Dev nD) (t : Fin cfg6.N) : sProp 𝕄 :=
  iprop((dat6 V c).Φ t.castSucc ∗ (dat6 V c).owesAt () t.castSucc
    ∗ (∃ d, owns (c : Thread nD τ) (win6_0.stage (cfg6.slots t 0)) fullShare ((dat6 V c).before 0 t d))
    ∗ (∃ d, owns (c : Thread nD τ) (win6_1.stage (cfg6.slots t 1)) fullShare ((dat6 V c).before 1 t d))
    ∗ (∃ d, owns (c : Thread nD τ) (win6_2.stage (cfg6.slots t 2)) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (win6_0.stage (cfg6.slots t 0)) fullShare ((dat6 V c).after 0 t)
    ∗ owns (c : Thread nD τ) (win6_1.stage (cfg6.slots t 1)) fullShare ((dat6 V c).after 1 t)
    ∗ owns (c : Thread nD τ) (win6_2.stage (cfg6.slots t 2)) fullShare ((dat6 V c).after 2 t))

set_option maxHeartbeats 4800000 in
/-- The body at any point: the inputs' memrefs hold their blocks, the output's and the scratch hold what the point
    before left unless the point is the first, so the run applies and leaves `outsAt6`; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [Phi6_eq, Phi6_eq, show (dat6 V c).owesAt () t.succ = (dat6 V c).owesAt () t.castSucc from rfl,
    show (dat6 V c).after 0 t = iblk6 V c 0 t from rfl, show (dat6 V c).after 1 t = iblk6 V c 1 t from rfl, after6_2]
  unfold PhiS6
  iintro ⟨⟨⟨⟨%ds, %hds, HS0⟩, Hr⟩, Hg⟩, Ho, ⟨%d0, H0⟩, ⟨%d1, H1⟩, ⟨%d2, H2⟩⟩
  have hp := outsAt6_eq V c t ((dat6 V c).before 2 t d2, ds) fun hn => Prod.ext (before6_2_pos V c t hn d2) (hds hn)
  rw [← hp]
  iapply run6 c (grid6.coords t) _ _ _ _ _ _ _ _ (hcond6_0 t) (hcond6_1 t) (iblk6 V c 0 t) (iblk6 V c 1 t) ((dat6 V c).before 2 t d2, ds) Set.univ _
  iframe H0 H1 H2 HS0
  iintro ⟨H0, H1, H2, HS0⟩
  iframe Hr Hg Ho H0 H1 H2
  iexists _; iframe HS0
  ipureintro; first | exact fun _ => rfl | exact fun _ => congrArg Prod.snd hp

theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : Pipeline.ΦA spec6 c ⊢ (dat6 V c).Φ 0 := by
  rw [PhiA6_eq, Phi6_eq]; unfold PhiS6
  iintro ⟨⟨⟨%d, H⟩, Hr⟩, Hg⟩
  iframe Hr Hg
  iexists d; iframe H
  ipureintro; exact fun hn => absurd rfl hn

/-- and after the last point the invariant gives it back: what the scratch holds is forgotten. -/
theorem hout6 (c : Dev nD) : (dat6 V c).Φ (Fin.last cfg6.N) ⊢ Pipeline.ΦA spec6 c := by
  rw [PhiA6_eq, Phi6_eq]; unfold PhiS6
  iintro ⟨⟨⟨%d, -, H⟩, Hr⟩, Hg⟩
  iframe Hr Hg
  iexists d; iexact H

end Cert.Kernel.Fr

end
-- ==== Proof.FrB.Rg7.lean ====
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1024x64 := Rect.unit (s := S1024x64) ![0, 0] S1024x64.size inb_S1024x64_S1024x64_0_0
abbrev r7_1 : Rect S64x2 := Rect.unit (s := S64x2) ![0, 0] S64x2.size inb_S64x2_S64x2_0_0
abbrev r7_2 : Rect S1x2 := Rect.unit (s := S1x2) ![0, 0] S1x2.size inb_S1x2_S1x2_0_0
abbrev r7_3 : Rect S1024x2 := Rect.unit (s := S1024x2) ![0, 0] S1024x2.size inb_S1024x2_S1024x2_0_0

def out7 (x0 : Vec F S1024x64 .f32) (x1 : Vec F S64x2 .f32) (x2 : Vec F S1x2 .f32) : Vec F S1024x2 .f32 :=
  View.canon [⟨r7_3, k7_pay1 (View.ld x0 r7_0) (View.ld x1 r7_1) (View.ld x2 r7_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out7 (iblk7 V c 0 t) (iblk7 V c 1 t) (iblk7 V c 2 t) := by dsimp only [dat7]

theorem before7 (c t) : (∀ d, (dat7 V c).before 0 t d = iblk7 V c 0 t) ∧ (∀ d, (dat7 V c).before 1 t d = iblk7 V c 1 t)
    ∧ ∀ d, (dat7 V c).before 2 t d = iblk7 V c 2 t := by
  refine ⟨?_, ?_, ?_⟩ <;> exact fun d =>
    ((dat7 V c).before_in_eq_fetched _ rfl (fun _ => rfl) (fun _ _ _ => rfl) (fun _ => rfl) t d).trans rfl

/-- The body reads its inputs whole and stores one payload over the whole output; whatever else is held (P, Q) comes back untouched. -/
theorem sound_kernel7 (c : Dev nD) {i arg0 harg0 arg1 harg1 arg2 harg2 arg3 harg3} {x0 : Vec F S1024x64 .f32} {x1 : Vec F S64x2 .f32}
    {x2 : Vec F S1x2 .f32} {D0 D1 D2 D3 : Type} {g : D3 → Vec F S1024x2 .f32} {P Q : sProp 𝕄} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (g d)))
      ⊢ wp frame (wpE defs₀ Variants.none c none) Set.univ (cc7__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2 ∗ owns c.tc arg3 fullShare (out7 x0 x1 x2)) := by
  simp only [cc7__matmul_bias_kernel_eq_skeleton]; unfold cc7__matmul_bias_kernel_skel owns
  iintro ⟨HP, HQ, ⟨%_, %f0, %h0, H0⟩, ⟨%_, %f1, %h1, H1⟩, ⟨%_, %f2, %h2, H2⟩, ⟨%_, %f3, -, H3⟩⟩
  subst h0 h1 h2
  sl_exec
  sl_step
  iframe HP HQ
  isplitl [H0]; · sl_close
  isplitl [H1]; · sl_close
  isplitl [H2]; · sl_close
  iexists _; isplitr; swap; · iexact H3
  ipureintro; exact View.read_writes_eq_canon _ _ _ (View.cover_of_tiled _ S1024x2.size (by rfl))

theorem body_obligation7 (c : Dev nD) : BodyObligation (dat7 (F := F) V c) (defs₀ (F := F)) Variants.none () Set.univ := fun t => by
  rw [bigSep_W7, bigSep_W7]
  simp only [before7 V c t, after7_3]
  sl_whnfR [defs₀, Defs.onTc]
  exact sound_kernel7 c

end Regions

end Cert.Kernel.Fr

end
-- ==== Proof.FrB.Run.lean ====
/- The run of the graph-convolution program as its fourteen items in order, six stretches of host operations and
   eight kernel regions, with the buffers' contents named at every boundary between two items. -/
import proofs.«415254_j79637283602865_2_alg».proof.Proof.Gen.Kernel.Launch
import proofs.«415254_j79637283602865_2_alg».proof.Proof.Gen.Kernel.Skeleton
import proofs.«415254_j79637283602865_2_alg».proof.Proof.Gen.Kernel.Points
import proofs.«415254_j79637283602865_2_alg».proof.Proof.Gen.Kernel.Regions
import proofs.«415254_j79637283602865_2_alg».proof.Proof.FrB.Rg0
import proofs.«415254_j79637283602865_2_alg».proof.Proof.FrB.Rg1
import proofs.«415254_j79637283602865_2_alg».proof.Proof.FrB.Rg2
import proofs.«415254_j79637283602865_2_alg».proof.Proof.FrB.Rg3
import proofs.«415254_j79637283602865_2_alg».proof.Proof.FrB.Rg4
import proofs.«415254_j79637283602865_2_alg».proof.Proof.FrB.Rg5
import proofs.«415254_j79637283602865_2_alg».proof.Proof.FrB.Rg6
import proofs.«415254_j79637283602865_2_alg».proof.Proof.FrB.Rg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every core's buffers at one boundary. -/
abbrev Vals (F : FTy → Type) : Type := Dev nD → Valuation τ sig (Elt F)

/-- Region `p` entered at `Win`: its windows' arrays end at the region's final contents, every other buffer as entered. -/
def Wreg (p : Fin 8) (Win : Vals F) (dat : (c : Dev nD) → Dat τ (Elt F) Unit ℕ (UR sig nD τ) ℕ (cfgs p) c) : Vals F :=
  fun c => Pipeline.withArrays (cfgs p).spec c (Win c) fun w => (dat c).arrAt w (cfgs p).N

theorem Wreg_arr {p : Fin 8} (lf : Pipeline.LaunchFacts (nD := nD) (τ := τ) cfgs p) (Win : Vals F)
    (dat : (c : Dev nD) → Dat τ (Elt F) Unit ℕ (UR sig nD τ) ℕ (cfgs p) c) (c : Dev nD) (w : Fin (cfgs p).W) :
    Wreg p Win dat c (Proc.devRef .tc (Pipeline.arrRef (cfgs p).spec w)) = (dat c).arrAt w (cfgs p).N :=
  Pipeline.withArrays_arr _ lf.win.arr_inj c _ _ w

/-- `B` holds what `A` held at every buffer outside `l`. -/
def Keeps (A B : Valuation τ sig (Elt F)) (l : List (Ref sig .tc)) : Prop :=
  ∀ r, r ∉ l → B (Proc.devRef .tc r) = A (Proc.devRef .tc r)

theorem Keeps.trans {A B C : Valuation τ sig (Elt F)} {l l' : List (Ref sig .tc)} (h : Keeps A B l) (h' : Keeps B C l') :
    Keeps A C (l ++ l') := fun r hr =>
  (h' r fun e => hr (List.mem_append_right _ e)).trans (h r fun e => hr (List.mem_append_left _ e))

/-- A region changes only its output window's array. -/
theorem Wreg_keeps {p : Fin 8} (lf : Pipeline.LaunchFacts (nD := nD) (τ := τ) cfgs p) (Win : Vals F)
    (dat : (c : Dev nD) → Dat τ (Elt F) Unit ℕ (UR sig nD τ) ℕ (cfgs p) c) (c : Dev nD)
    (hA : ∀ w, (dat c).A w = Win c (Proc.devRef .tc (Pipeline.arrRef (cfgs p).spec w)))
    (wo : Fin (cfgs p).W) (hin : ∀ w, w ≠ wo → ((cfgs p).win w).isOut = false) :
    Keeps (Win c) (Wreg p Win dat c) [Pipeline.arrRef (cfgs p).spec wo] := fun r hr => by
  by_cases h : ∃ w, Pipeline.arrRef (cfgs p).spec w = r
  · obtain ⟨w, rfl⟩ := h
    exact (Wreg_arr lf Win dat c w).trans
      (((dat c).arrAt_in w (hin w fun e => hr (List.mem_singleton.mpr (congrArg _ e))) _).trans (hA w))
  · exact Pipeline.withArrays_of_ne _ c _ _ r fun w e => h ⟨w, e⟩

variable (m : (ℓ : Loc nD τ sig) → Buf (Elt F) ℓ) (ρ : Dev nD → PrngReg)

/-- A boundary's contents read at the TensorCore's references. -/
abbrev tc (W : Vals F) : (c : Dev nD) → (b : Ref sig .tc) → Buf (Elt F) ((c : Thread nD τ).loc b) := fun c b => W c b

abbrev W0 : Vals F := fun c b => (s₀ m ρ).mem ((c : Dev nD), b)
abbrev W1 : Vals F := fun c => StableHlo.after hostOps0 (W0 m ρ c)
abbrev V1 := tc (W1 m ρ)
abbrev W2 : Vals F := Wreg 0 (W1 m ρ) (dat0 (V1 m ρ))
abbrev V2 := tc (W2 m ρ)
abbrev W3 : Vals F := fun c => StableHlo.after hostOps1 (W2 m ρ c)
abbrev V3 := tc (W3 m ρ)
abbrev W4 : Vals F := Wreg 1 (W3 m ρ) (dat1 (V3 m ρ))
abbrev V4 := tc (W4 m ρ)
abbrev W5 : Vals F := Wreg 2 (W4 m ρ) (dat2 (V4 m ρ))
abbrev V5 := tc (W5 m ρ)
abbrev W6 : Vals F := fun c => StableHlo.after hostOps3 (W5 m ρ c)
abbrev V6 := tc (W6 m ρ)
abbrev W7 : Vals F := Wreg 3 (W6 m ρ) (dat3 (V6 m ρ))
abbrev V7 := tc (W7 m ρ)
abbrev W8 : Vals F := Wreg 4 (W7 m ρ) (dat4 (V7 m ρ))
abbrev V8 := tc (W8 m ρ)
abbrev W9 : Vals F := fun c => StableHlo.after hostOps5 (W8 m ρ c)
abbrev V9 := tc (W9 m ρ)
abbrev W10 : Vals F := Wreg 5 (W9 m ρ) (dat5 (V9 m ρ))
abbrev V10 := tc (W10 m ρ)
abbrev W11 : Vals F := fun c => StableHlo.after hostOps6 (W10 m ρ c)
abbrev V11 := tc (W11 m ρ)
abbrev W12 : Vals F := Wreg 6 (W11 m ρ) (dat6 (V11 m ρ))
abbrev V12 := tc (W12 m ρ)
abbrev W13 : Vals F := fun c => StableHlo.after hostOps7 (W12 m ρ c)
abbrev V13 := tc (W13 m ρ)
abbrev W14 : Vals F := Wreg 7 (W13 m ρ) (dat7 (V13 m ρ))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Kept

variable (c : Dev nD)

theorem k1 : Keeps (W0 m ρ c) (W1 m ρ c) hostOps0_W := fun _ h => StableHlo.after_of_writes_sub hostOps0 _ hostOps0_writes h
theorem k2 : Keeps (W1 m ρ c) (W2 m ρ c) [Pipeline.arrRef spec0 2] := Wreg_keeps launch0 _ _ c (A_eq0 _ c) (2 : Fin cfg0.W) (by decide)
theorem k3 : Keeps (W2 m ρ c) (W3 m ρ c) hostOps1_W := fun _ h => StableHlo.after_of_writes_sub hostOps1 _ hostOps1_writes h
theorem k4 : Keeps (W3 m ρ c) (W4 m ρ c) [Pipeline.arrRef spec1 4] := Wreg_keeps launch1 _ _ c (A_eq1 _ c) (4 : Fin cfg1.W) (by decide)
theorem k5 : Keeps (W4 m ρ c) (W5 m ρ c) [Pipeline.arrRef spec2 2] := Wreg_keeps launch2 _ _ c (A_eq2 _ c) (2 : Fin cfg2.W) (by decide)
theorem k6 : Keeps (W5 m ρ c) (W6 m ρ c) hostOps3_W := fun _ h => StableHlo.after_of_writes_sub hostOps3 _ hostOps3_writes h
theorem k7 : Keeps (W6 m ρ c) (W7 m ρ c) [Pipeline.arrRef spec3 4] := Wreg_keeps launch3 _ _ c (A_eq3 _ c) (4 : Fin cfg3.W) (by decide)
theorem k8 : Keeps (W7 m ρ c) (W8 m ρ c) [Pipeline.arrRef spec4 2] := Wreg_keeps launch4 _ _ c (A_eq4 _ c) (2 : Fin cfg4.W) (by decide)
theorem k9 : Keeps (W8 m ρ c) (W9 m ρ c) hostOps5_W := fun _ h => StableHlo.after_of_writes_sub hostOps5 _ hostOps5_writes h
theorem k10 : Keeps (W9 m ρ c) (W10 m ρ c) [Pipeline.arrRef spec5 4] := Wreg_keeps launch5 _ _ c (A_eq5 _ c) (4 : Fin cfg5.W) (by decide)
theorem k11 : Keeps (W10 m ρ c) (W11 m ρ c) hostOps6_W := fun _ h => StableHlo.after_of_writes_sub hostOps6 _ hostOps6_writes h
theorem k12 : Keeps (W11 m ρ c) (W12 m ρ c) [Pipeline.arrRef spec6 2] := Wreg_keeps launch6 _ _ c (A_eq6 _ c) (2 : Fin cfg6.W) (by decide)
theorem k13 : Keeps (W12 m ρ c) (W13 m ρ c) hostOps7_W := fun _ h => StableHlo.after_of_writes_sub hostOps7 _ hostOps7_writes h
theorem k14 : Keeps (W13 m ρ c) (W14 m ρ c) [Pipeline.arrRef spec7 3] := Wreg_keeps launch7 _ _ c (A_eq7 _ c) (3 : Fin cfg7.W) (by decide)

/-- The buffers some item may change. -/
abbrev wrAll : List (Ref sig .tc) :=
  hostOps0_W ++ ([Pipeline.arrRef spec0 2] ++ (hostOps1_W ++ ([Pipeline.arrRef spec1 4] ++ ([Pipeline.arrRef spec2 2] ++ (hostOps3_W ++ ([Pipeline.arrRef spec3 4] ++ ([Pipeline.arrRef spec4 2] ++ (hostOps5_W ++ ([Pipeline.arrRef spec5 4] ++ (hostOps6_W ++ ([Pipeline.arrRef spec6 2] ++ (hostOps7_W ++ ([Pipeline.arrRef spec7 3])))))))))))))

/-- From the launch to the return a buffer no item changes holds what it held. -/
theorem k0_14 : Keeps (W0 m ρ c) (W14 m ρ c) wrAll :=
  (k1 m ρ c).trans ((k2 m ρ c).trans ((k3 m ρ c).trans ((k4 m ρ c).trans ((k5 m ρ c).trans ((k6 m ρ c).trans ((k7 m ρ c).trans ((k8 m ρ c).trans ((k9 m ρ c).trans ((k10 m ρ c).trans ((k11 m ρ c).trans ((k12 m ρ c).trans ((k13 m ρ c).trans (k14 m ρ c)))))))))))))

/-- A final memory that holds the last boundary's contents holds, at a buffer no item changes, its launch contents. -/
theorem kept_end {s : (ℓ : Loc nD τ sig) → Buf (Elt F) ℓ}
    (hs : ∀ b ∈ Pipeline.ucRefs τ sig, s ((c : Thread nD τ).1, b) = W14 m ρ c b) (r : Ref sig .tc)
    (hu : ¬ (Proc.devRef .tc r : DevRef τ sig).isScoped) (h : r ∉ wrAll) :
    s ((c.tc : Thread nD τ).loc r) = m ((c.tc : Thread nD τ).loc r) :=
  (hs _ (mem_uc r hu)).trans (k0_14 m ρ c r h)

/-- Memory `s` holds every argument of core `c` as launched. -/
abbrev ArgsKept (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)

/-- Every argument is a buffer no item changes. -/
theorem args_kept {s : (ℓ : Loc nD τ sig) → Buf (Elt F) ℓ}
    (hs : ∀ b ∈ Pipeline.ucRefs τ sig, s ((c : Thread nD τ).1, b) = W14 m ρ c b) : ArgsKept m c s :=
  ⟨kept_end m ρ c hs main_arg0 (by decide) (by decide),
   kept_end m ρ c hs main_arg1 (by decide) (by decide),
   kept_end m ρ c hs main_arg2 (by decide) (by decide),
   kept_end m ρ c hs main_arg3 (by decide) (by decide),
   kept_end m ρ c hs main_arg4 (by decide) (by decide),
   kept_end m ρ c hs main_arg5 (by decide) (by decide),
   kept_end m ρ c hs main_arg6 (by decide) (by decide),
   kept_end m ρ c hs main_arg7 (by decide) (by decide),
   kept_end m ρ c hs main_arg8 (by decide) (by decide),
   kept_end m ρ c hs main_arg9 (by decide) (by decide),
   kept_end m ρ c hs main_arg10 (by decide) (by decide)⟩

end Kept

/-- Every pipeline's proof data, each at its region's entry contents. -/
def pdats : (p : Fin 8) → (c : Dev nD) → Dat τ (Elt F) Unit ℕ (UR sig nD τ) ℕ (cfgs p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region `p` as a segment of the run: entered with every buffer at `Win`, left with every buffer at `Wreg p Win`. -/
def reg (p : Fin 8) (lf : Pipeline.LaunchFacts (nD := nD) (τ := τ) cfgs p) (Win : Vals F)
    (hbody : ∀ c, Pipeline.BodyObligationLoose (pdats m ρ p c) (defs₀ (F := F)) 𝒱₀ () Set.univ)
    (hq : ∀ c w, (pdats m ρ p c).q w = fullShare)
    (hA : ∀ c w, (pdats m ρ p c).A w = Win c (Proc.devRef .tc (Pipeline.arrRef (cfgs p).spec w)))
    (howed : ∀ c t, (pdats m ρ p c).owed t = 0) (hrec : ∀ c x, x ∈ (pdats m ρ p c).recorded 0)
    (hΦi : ∀ c, Pipeline.ΦA (cfgs p).spec c ⊢ (pdats m ρ p c).Φ 0)
    (hΦo : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wreg p Win (pdats m ρ p) c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wreg p Win (pdats m ρ p) c b) ((pdats m ρ p c).arrAt · (cfgs p).N)
      (fun w => (Wreg_arr lf Win (pdats m ρ p) c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

section Regs
set_option backward.isDefEq.respectTransparency.types false
def reg0 := reg m ρ 0 launch0 (W1 m ρ) (fun c => (body_obligation0 (V1 m ρ) c).loose) (fun _ _ => rfl) (fun _ _ => rfl) (fun _ _ => rfl) (fun _ _ => trivial) (fun _ => .rfl) (fun _ => .rfl)
def reg1 := reg m ρ 1 launch1 (W3 m ρ) (fun c => (body_obligation1 (V3 m ρ) c).loose) (fun _ _ => rfl) (fun _ _ => rfl) (fun _ _ => rfl) (fun _ _ => trivial) (fun _ => .rfl) (fun _ => .rfl)
def reg2 := reg m ρ 2 launch2 (W4 m ρ) (fun c => (body_obligation2 (V4 m ρ) c).loose) (fun _ _ => rfl) (fun _ _ => rfl) (fun _ _ => rfl) (fun _ _ => trivial) (fun _ => .rfl) (fun _ => .rfl)
def reg3 := reg m ρ 3 launch3 (W6 m ρ) (fun c => (body_obligation3 (V6 m ρ) c).loose) (fun _ _ => rfl) (fun _ _ => rfl) (fun _ _ => rfl) (fun _ _ => trivial) (fun _ => .rfl) (fun _ => .rfl)
def reg4 := reg m ρ 4 launch4 (W7 m ρ) (fun c => (body_obligation4 (V7 m ρ) c).loose) (fun _ _ => rfl) (fun _ _ => rfl) (fun _ _ => rfl) (fun _ _ => trivial) (fun _ => .rfl) (fun _ => .rfl)
def reg5 := reg m ρ 5 launch5 (W9 m ρ) (fun c => (body_obligation5 (V9 m ρ) c).loose) (fun _ _ => rfl) (fun _ _ => rfl) (fun _ _ => rfl) (fun _ _ => trivial) (fun _ => .rfl) (fun _ => .rfl)
def reg6 := reg m ρ 6 launch6 (W11 m ρ) (fun c => (body_obligation6 (V11 m ρ) c).loose) (fun _ _ => rfl) (fun _ _ => rfl) (fun _ _ => rfl) (fun _ _ => trivial) (hin6 (V11 m ρ)) (hout6 (V11 m ρ))
def reg7 := reg m ρ 7 launch7 (W13 m ρ) (fun c => (body_obligation7 (V13 m ρ) c).loose) (fun _ _ => rfl) (fun _ _ => rfl) (fun _ _ => rfl) (fun _ _ => trivial) (fun _ => .rfl) (fun _ => .rfl)
end Regs

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ), .region (reg2 m ρ),
    .host (hseg hostOps3 hostOps3_sub hostOps3_fresh (W5 m ρ)), .region (reg3 m ρ), .region (reg4 m ρ),
    .host (hseg hostOps5 hostOps5_sub hostOps5_fresh (W8 m ρ)), .region (reg5 m ρ),
    .host (hseg hostOps6 hostOps6_sub hostOps6_fresh (W10 m ρ)), .region (reg6 m ρ),
    .host (hseg hostOps7 hostOps7_sub hostOps7_fresh (W12 m ρ)), .region (reg7 m ρ) ]

/-- @main is the run of the segments: both are the chain of the same fourteen fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      Prog.lift (.customCall (Pipeline.entry 2) ()),
      StableHlo.seq hostOps3,
      Prog.lift (.customCall (Pipeline.entry 3) ()),
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()) ] from rfl]
  rfl

set_option backward.isDefEq.respectTransparency.types false in
/-- Every weakly fair execution of @main terminates, nothing faulting, with every buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- Every final state has each argument array as launched. -/
theorem frame : θ_run defs (onTc (τ := τ) (main (F := F))) ⟨m, fun _ => 0, ρ⟩ (fun r => ∀ c : Dev nD, ArgsKept m c r.2.mem) :=
  (θ_run defs (onTc (τ := τ) (main (F := F))) ⟨m, fun _ => 0, ρ⟩).mono (fun r h c => args_kept m ρ c (h c)) (run_all m ρ)

end Cert.Kernel.Fr

end
-- ==== Proof.FrI.Rg0.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

def out0 (x0 : Vec F S5000x128 .f32) (x1 : Vec F S128x64 .f32) : Vec F S5000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0 (iblk0 V c 0 t) (iblk0 V c 1 t) := by dsimp only [dat0]

theorem before0 (c t) : (∀ d, (dat0 V c).before 0 t d = iblk0 V c 0 t) ∧ ∀ d, (dat0 V c).before 1 t d = iblk0 V c 1 t := by
  refine ⟨?_, ?_⟩ <;> exact fun d =>
    ((dat0 V c).before_in_eq_fetched _ rfl (fun _ => rfl) (fun _ _ _ => rfl) (fun _ => rfl) t d).trans rfl

/-- The body reads its inputs whole and stores one payload over the whole output; whatever else is held (P, Q) comes back untouched. -/
theorem sound_kernel0 (c : Dev nD) {i arg0 harg0 arg1 harg1 arg2 harg2} {x0 : Vec F S5000x128 .f32} {x1 : Vec F S128x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc0__matmul_kernel i arg0 harg0 arg1 harg1 arg2 harg2) fun _ =>
        iprop(P ∗ Q ∗ owns c.tc arg0 fullShare x0 ∗ owns c.tc arg1 fullShare x1 ∗ owns c.tc arg2 fullShare (out0 x0 x1)) := by
  simp only [cc0__matmul_kernel_eq_skeleton]; unfold cc0__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation0 (c : Dev nD) : BodyObligation (dat0 (F := F) V c) (defs₀ (F := F)) Variants.none () Set.univ := fun t => by
  rw [bigSep_W0, bigSep_W0]
  simp only [before0 V c t, after0_2]
  sl_whnfR [defs₀, Defs.onTc]
  exact sound_kernel0 c

end Regions

end Cert.KernelIdeal.Fr

end
-- ==== Proof.FrI.Rg1.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0

def out1 (x0 x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1 (iblk1 V c 0 t) (iblk1 V c 1 t) (iblk1 V c 2 t) (iblk1 V c 3 t) := by dsimp only [dat1]

theorem before1 (c t) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> exact fun d =>
    ((dat1 V c).before_in_eq_fetched _ rfl (fun _ => rfl) (fun _ _ _ => rfl) (fun _ => rfl) t d).trans rfl

/-- The body reads its inputs whole and stores one payload over the whole output; whatever else is held (P, Q) comes back untouched. -/
theorem sound_kernel1 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc1__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out1 x0 x1 x2 x3)) := by
  simp only [cc1__combine_kernel_eq_skeleton]; unfold cc1__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation1 (c : Dev nD) : BodyObligation (dat1 (F := F) V c) (defs₀ (F := F)) Variants.none () Set.univ := fun t => by
  rw [bigSep_W1, bigSep_W1]
  simp only [before1 V c t, after1_4]
  sl_whnfR [defs₀, Defs.onTc]
  exact sound_kernel1 c

end Regions

end Cert.KernelIdeal.Fr

end
-- ==== Proof.FrI.Rg2.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x64 := Rect.unit (s := S5000x64) ![0, 0] S5000x64.size inb_S5000x64_S5000x64_0_0

def out2 (x0 : Vec F S5000x64 .f32) (x1 : Vec F S64x64 .f32) : Vec F S5000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2 (iblk2 V c 0 t) (iblk2 V c 1 t) := by dsimp only [dat2]

theorem before2 (c t) : (∀ d, (dat2 V c).before 0 t d = iblk2 V c 0 t) ∧ ∀ d, (dat2 V c).before 1 t d = iblk2 V c 1 t := by
  refine ⟨?_, ?_⟩ <;> exact fun d =>
    ((dat2 V c).before_in_eq_fetched _ rfl (fun _ => rfl) (fun _ _ _ => rfl) (fun _ => rfl) t d).trans rfl

/-- The body reads its inputs whole and stores one payload over the whole output; whatever else is held (P, Q) comes back untouched. -/
theorem sound_kernel2 (c : Dev nD) {i arg0 harg0 arg1 harg1 arg2 harg2} {x0 : Vec F S5000x64 .f32} {x1 : Vec F S64x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc2__matmul_kernel i arg0 harg0 arg1 harg1 arg2 harg2) fun _ =>
        iprop(P ∗ Q ∗ owns c.tc arg0 fullShare x0 ∗ owns c.tc arg1 fullShare x1 ∗ owns c.tc arg2 fullShare (out2 x0 x1)) := by
  simp only [cc2__matmul_kernel_eq_skeleton]; unfold cc2__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation2 (c : Dev nD) : BodyObligation (dat2 (F := F) V c) (defs₀ (F := F)) Variants.none () Set.univ := fun t => by
  rw [bigSep_W2, bigSep_W2]
  simp only [before2 V c t, after2_2]
  sl_whnfR [defs₀, Defs.onTc]
  exact sound_kernel2 c

end Regions

end Cert.KernelIdeal.Fr

end
-- ==== Proof.FrI.Rg3.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

def out3 (x0 x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3 (iblk3 V c 0 t) (iblk3 V c 1 t) (iblk3 V c 2 t) (iblk3 V c 3 t) := by dsimp only [dat3]

theorem before3 (c t) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact fun d =>
    ((dat3 V c).before_in_eq_fetched _ rfl (fun _ => rfl) (fun _ _ _ => rfl) (fun _ => rfl) t d).trans rfl

/-- The body reads its inputs whole and stores one payload over the whole output; whatever else is held (P, Q) comes back untouched. -/
theorem sound_kernel3 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc3__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out3 x0 x1 x2 x3)) := by
  simp only [cc3__combine_kernel_eq_skeleton]; unfold cc3__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation3 (c : Dev nD) : BodyObligation (dat3 (F := F) V c) (defs₀ (F := F)) Variants.none () Set.univ := fun t => by
  rw [bigSep_W3, bigSep_W3]
  simp only [before3 V c t, after3_4]
  sl_whnfR [defs₀, Defs.onTc]
  exact sound_kernel3 c

end Regions

end Cert.KernelIdeal.Fr

end
-- ==== Proof.FrI.Rg4.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S5000x64 := Rect.unit (s := S5000x64) ![0, 0] S5000x64.size inb_S5000x64_S5000x64_0_0

def out4 (x0 : Vec F S5000x64 .f32) (x1 : Vec F S64x64 .f32) : Vec F S5000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4 (iblk4 V c 0 t) (iblk4 V c 1 t) := by dsimp only [dat4]

theorem before4 (c t) : (∀ d, (dat4 V c).before 0 t d = iblk4 V c 0 t) ∧ ∀ d, (dat4 V c).before 1 t d = iblk4 V c 1 t := by
  refine ⟨?_, ?_⟩ <;> exact fun d =>
    ((dat4 V c).before_in_eq_fetched _ rfl (fun _ => rfl) (fun _ _ _ => rfl) (fun _ => rfl) t d).trans rfl

/-- The body reads its inputs whole and stores one payload over the whole output; whatever else is held (P, Q) comes back untouched. -/
theorem sound_kernel4 (c : Dev nD) {i arg0 harg0 arg1 harg1 arg2 harg2} {x0 : Vec F S5000x64 .f32} {x1 : Vec F S64x64 .f32}
    {D0 D1 D2 : Type} {g : D2 → Vec F S5000x64 .f32} {P Q : sProp 𝕄} :
    iprop(P ∗ Q ∗ (∃ _ : D0, owns c.tc arg0 fullShare x0) ∗ (∃ _ : D1, owns c.tc arg1 fullShare x1) ∗ (∃ d, owns c.tc arg2 fullShare (g d)))
      ⊢ wp frame (wpE defs₀ Variants.none c none) Set.univ (cc4__matmul_kernel i arg0 harg0 arg1 harg1 arg2 harg2) fun _ =>
        iprop(P ∗ Q ∗ owns c.tc arg0 fullShare x0 ∗ owns c.tc arg1 fullShare x1 ∗ owns c.tc arg2 fullShare (out4 x0 x1)) := by
  simp only [cc4__matmul_kernel_eq_skeleton]; unfold cc4__matmul_kernel_skel owns
  iintro ⟨HP, HQ, ⟨%_, %f0, %h0, H0⟩, ⟨%_, %f1, %h1, H1⟩, ⟨%_, %f2, -, H2⟩⟩
  subst h0 h1
  sl_exec
  sl_step
  iframe HP HQ
  isplitl [H0]; · sl_close
  isplitl [H1]; · sl_close
  iexists _; isplitr; swap; · iexact H2
  ipureintro; exact View.read_writes_eq_canon _ _ _ (View.cover_of_tiled _ S5000x64.size (by rfl))

theorem body_obligation4 (c : Dev nD) : BodyObligation (dat4 (F := F) V c) (defs₀ (F := F)) Variants.none () Set.univ := fun t => by
  rw [bigSep_W4, bigSep_W4]
  simp only [before4 V c t, after4_2]
  sl_whnfR [defs₀, Defs.onTc]
  exact sound_kernel4 c

end Regions

end Cert.KernelIdeal.Fr

end
-- ==== Proof.FrI.Rg5.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S5000x1 := Rect.unit (s := S5000x1) ![0, 0] S5000x1.size inb_S5000x1_S5000x1_0_0
abbrev r5_2 : Rect S1x64 := Rect.unit (s := S1x64) ![0, 0] S1x64.size inb_S1x64_S1x64_0_0

def out5 (x0 x1 : Vec F S5000x64 .f32) (x2 : Vec F S5000x1 .f32) (x3 : Vec F S1x64 .f32) : Vec F S5000x64 .f32 :=
  View.canon [⟨r5_0, k5_pay1 (View.ld x0 r5_0) (View.ld x1 r5_0) (View.ld x2 r5_1) (View.ld x3 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5 (iblk5 V c 0 t) (iblk5 V c 1 t) (iblk5 V c 2 t) (iblk5 V c 3 t) := by dsimp only [dat5]

theorem before5 (c t) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> exact fun d =>
    ((dat5 V c).before_in_eq_fetched _ rfl (fun _ => rfl) (fun _ _ _ => rfl) (fun _ => rfl) t d).trans rfl

/-- The body reads its inputs whole and stores one payload over the whole output; whatever else is held (P, Q) comes back untouched. -/
theorem sound_kernel5 (c : Dev nD) {i arg1 harg1 arg2 harg2 arg3 harg3 arg4 harg4 arg5 harg5} {x0 x1 : Vec F S5000x64 .f32} {x2 : Vec F S5000x1 .f32}
    {x3 : Vec F S1x64 .f32} {D0 D1 D2 D3 D4 : Type} {g : D4 → Vec F S5000x64 .f32} {P Q : sProp 𝕄} :
    iprop(P ∗ Q ∗ (∃ _ : D0, owns c.tc arg1 fullShare x0) ∗ (∃ _ : D1, owns c.tc arg2 fullShare x1) ∗ (∃ _ : D2, owns c.tc arg3 fullShare x2)
        ∗ (∃ _ : D3, owns c.tc arg4 fullShare x3) ∗ (∃ d, owns c.tc arg5 fullShare (g d)))
      ⊢ wp frame (wpE defs₀ Variants.none c none) Set.univ (cc5__combine_kernel i arg1 harg1 arg2 harg2 arg3 harg3 arg4 harg4 arg5 harg5) fun _ =>
        iprop(P ∗ Q ∗ owns c.tc arg1 fullShare x0 ∗ owns c.tc arg2 fullShare x1 ∗ owns c.tc arg3 fullShare x2 ∗ owns c.tc arg4 fullShare x3
          ∗ owns c.tc arg5 fullShare (out5 x0 x1 x2 x3)) := by
  simp only [cc5__combine_kernel_eq_skeleton]; unfold cc5__combine_kernel_skel owns
  iintro ⟨HP, HQ, ⟨%_, %f0, %h0, H0⟩, ⟨%_, %f1, %h1, H1⟩, ⟨%_, %f2, %h2, H2⟩, ⟨%_, %f3, %h3, H3⟩, ⟨%_, %f4, -, H4⟩⟩
  subst h0 h1 h2 h3
  sl_exec
  sl_step
  iframe HP HQ
  isplitl [H0]; · sl_close
  isplitl [H1]; · sl_close
  isplitl [H2]; · sl_close
  isplitl [H3]; · sl_close
  iexists _; isplitr; swap; · iexact H4
  ipureintro; exact View.read_writes_eq_canon _ _ _ (View.cover_of_tiled _ S5000x64.size (by rfl))

theorem body_obligation5 (c : Dev nD) : BodyObligation (dat5 (F := F) V c) (defs₀ (F := F)) Variants.none () Set.univ := fun t => by
  rw [bigSep_W5, bigSep_W5]
  simp only [before5 V c t, after5_4]
  sl_whnfR [defs₀, Defs.onTc]
  exact sound_kernel5 c

end Regions

end Cert.KernelIdeal.Fr

end
-- ==== Proof.FrI.Rg6Runs.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The body's first condition, "the grid coordinate is 0": it holds at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 20 = 0 :=
  (by decide +kernel : ∀ t : Fin grid6.N, cond6_0 (grid6.coords t) ↔ t.val % 20 = 0)

/-- Its second, "the grid coordinate is 19": at the last point only. -/
abbrev cond6_1 (i : grid6.Coords) : Prop := (Scalar.cmpi .ne (Scalar.extui (Scalar.cmpi .eq (BitVec.ofNat 32 (i 0).val) 19#32)) 0#32) = 1#1
theorem hcond6_1 : ∀ t : Fin cfg6.N, cond6_1 (grid6.coords t) ↔ t.val % 20 = 19 :=
  (by decide +kernel : ∀ t : Fin grid6.N, cond6_1 (grid6.coords t) ↔ t.val % 20 = 19)

/-- The counts scratch: the body's fourth operand. -/
abbrev scM6_0 : Memref sig .tc .vmem S1024x1 .f32 := Memref.whole cc6_scratch0

/-- The region invariant with the counts scratch split off the scoped buffers. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Fr

end
-- ==== Proof.FrI.Rg6.lean ====
import proofs.«415254_j79637283602865_2_alg».proof.Proof.FrI.Rg6Runs
import Idealize.ShloMosaic.Lib.Pipeline.Value
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz6 : (![0, 0] : Fin 2 → Nat) = fun _ => 0 := funext fun a => by fin_cases a <;> rfl

section Whole
variable {S : Shape} {e : EltTy} {κ : Kind} {sp : Space} (v : View sig κ sp S e) {off : Fin S.rank → Nat} (h : off = fun _ => 0)
  (inb : ∀ a, off a + S.size a ≤ S.size a) (w : S.Idx → Elt F e) (L : List (View.Piece (Elt F) S e))
include h

/-- The last store, through the whole buffer, covers every earlier one. -/
theorem cover_whole (y : S.Idx) : ∃ p ∈ (⟨Rect.unit off S.size inb, w⟩ :: L : List (View.Piece (Elt F) S e)), y ∈ p.1.set :=
  ⟨_, List.mem_cons_self .., View.mem_set_unit_zero h inb y⟩

/-- So the buffer reads as its payload, -/
theorem read_whole (f : v.ty.Contents (Elt F)) : v.read (Elt F) (v.writes (Elt F) f (⟨Rect.unit off S.size inb, w⟩ :: L)) = w :=
  (View.read_writes_eq_canon v f _ (cover_whole h inb w L)).trans (View.canon_cons_unit_zero h inb w L)

/-- and so does a load of the whole buffer after it. -/
theorem readCov_whole : v.readCov (⟨Rect.unit off S.size inb, w⟩ :: L) (Rect.unit off S.size inb).toLoadRect = w := by
  rw [View.readCov_eq_canon_ld _ _ _ (cover_whole h inb w L), View.canon_cons_unit_zero h, View.ld_unit_zero h]
end Whole

/-- What a point leaves in the output block and in the counts, from what it finds there (`p`): the first point starts
    both from zeros, every point adds its tile's sums and counts, the last then divides the sums by the counts. -/
def res6 (first last : Prop) [Decidable first] [Decidable last] (x0 : Vec F S5000x64 .f32) (x1 : Vec F S5000x1 .i32)
    (p : Vec F S1024x64 .f32 × Vec F S1024x1 .f32) : Vec F S1024x64 .f32 × Vec F S1024x1 .f32 :=
  (fun a s => (if last then k6_pay6 a s else a, s)) (k6_pay4 x1 x0 (if first then k6_pay1 else p.1)) (k6_pay5 x1 (if first then k6_pay2 else p.2))

set_option maxHeartbeats 4000000 in
/-- On whole buffers the body runs, whichever of its two conditionals it takes, to the inputs as they were and the
    output block and the counts at `res6` of what they held. -/
theorem run6 (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S1024x64 .f32) (harg3 : arg3.IsWhole) (arg4 : Memref sig .tc .vmem S1024x1 .f32) (harg4 : arg4.IsWhole)
    {first last : Prop} [Decidable first] [Decidable last] (h0 : cond6_0 i ↔ first) (h1 : cond6_1 i ↔ last)
    (x0 : Vec F S5000x64 .f32) (x1 : Vec F S5000x1 .i32) (p : Vec F S1024x64 .f32 × Vec F S1024x1 .f32) (E : Set ℕ) (K : PUnit → sProp 𝕄) :
    iprop(owns (c : Thread nD τ) arg1 fullShare x0 ∗ owns (c : Thread nD τ) arg2 fullShare x1 ∗ owns (c : Thread nD τ) arg3 fullShare p.1 ∗ owns (c : Thread nD τ) arg4 fullShare p.2
        ∗ (iprop(owns (c : Thread nD τ) arg1 fullShare x0 ∗ owns (c : Thread nD τ) arg2 fullShare x1 ∗ owns (c : Thread nD τ) arg3 fullShare (res6 first last x0 x1 p).1 ∗ owns (c : Thread nD τ) arg4 fullShare (res6 first last x0 x1 p).2) -∗ K ⟨⟩))
      ⊢ wp frame (wpE (defs₀ (F := F)) Variants.none c none) E (cc6__pool_kernel i arg1 harg1 arg2 harg2 arg3 harg3 arg4 harg4) K := by
  unfold res6 owns
  by_cases hF : first <;> by_cases hL : last <;> simp only [hF, hL, ↓reduceIte] <;>
  ( simp only [cc6__pool_kernel_eq_skeleton]; unfold cc6__pool_kernel_skel
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact h0.mpr hF | exact mt h0.mp hF | exact h1.mpr hL | exact mt h1.mp hL)
    sl_step
    iapply Hk
    isplitl [H0]; · iexists _; iframe H0; ipureintro; exact harg1.read_unread _
    isplitl [H1]; · iexists _; iframe H1; ipureintro; exact harg2.read_unread _
    isplitl [H2] <;>
    ( iexists _; iframe; ipureintro
      try sl_unfold_run_names
      rw [read_whole _ hz6]
      simp only [View.readAt_eq_ld, readCov_whole (S := S1024x64) _ hz6, readCov_whole (S := S1024x1) _ hz6, harg1.read_unread, harg2.read_unread, harg3.read_unread, harg4.read_unread, View.ld_unit_zero (S := S5000x64) hz6, View.ld_unit_zero (S := S5000x1) hz6, View.ld_unit_zero (S := S1024x64) hz6, View.ld_unit_zero (S := S1024x1) hz6] ) )

/-- The first point's result does not depend on what it finds. -/
theorem res6_first {first last : Prop} [Decidable first] [Decidable last] (hF : first) (x0 : Vec F S5000x64 .f32) (x1 : Vec F S5000x1 .i32)
    (p q : Vec F S1024x64 .f32 × Vec F S1024x1 .f32) : res6 first last x0 x1 p = res6 first last x0 x1 q := by
  unfold res6; rw [if_pos hF, if_pos hF, if_pos hF, if_pos hF]

/-- What the output block and the counts hold after the body at position `n`: the point's result from what the point
    before left (the first point's from anything). -/
def outsAt6 (c : Dev nD) : (n : ℕ) → n < cfg6.N → Vec F S1024x64 .f32 × Vec F S1024x1 .f32
  | 0, h => res6 (0 % 20 = 0) (0 % 20 = 19) (iblk6 V c 0 ⟨0, h⟩) (iblk6 V c 1 ⟨0, h⟩) (k6_pay1, k6_pay2)
  | n + 1, h => res6 ((n + 1) % 20 = 0) ((n + 1) % 20 = 19) (iblk6 V c 0 ⟨n + 1, h⟩) (iblk6 V c 1 ⟨n + 1, h⟩) (outsAt6 c n (Nat.lt_of_succ_lt h))

/-- At any point: its result from `p`, where `p` is what the point before left unless the point is the first. -/
theorem outsAt6_eq (c : Dev nD) (t : Fin cfg6.N) (p : Vec F S1024x64 .f32 × Vec F S1024x1 .f32)
    (hp : ∀ hn : t.val ≠ 0, p = outsAt6 V c (t.val - 1) (Nat.lt_of_le_of_lt (Nat.sub_le _ _) t.isLt)) :
    res6 (t.val % 20 = 0) (t.val % 20 = 19) (iblk6 V c 0 t) (iblk6 V c 1 t) p = outsAt6 V c t.val t.isLt := by
  obtain ⟨_ | n, h⟩ := t
  · exact res6_first (Nat.zero_mod _) ..
  · rw [hp (Nat.succ_ne_zero n)]; rfl

/-- The scoped buffers other than the counts scratch, unopened. -/
abbrev restBut6 (c : Dev nD) : sProp 𝕄 :=
  Pipeline.scopedRestBut (Ix := Unit) (Name := ℕ) (U := UR sig nD τ) (Lvl := ℕ) (Val := Elt F) spec6 c [cc6_scratch0]

/-- The region invariant before position `n`: the counts scratch at what the point before left (before the first point
    at anything), the other scoped buffers unopened, the generator register at some state. -/
def PhiS6 (c : Dev nD) (n : ℕ) (h : n ≤ cfg6.N) : sProp 𝕄 :=
  iprop(iprop(iprop(∃ ds, ⌜∀ hn : n ≠ 0, ds = (outsAt6 V c (n - 1) (by omega)).2⌝ ∗ owns (c : Thread nD τ) scM6_0 fullShare ds) ∗ restBut6 c) ∗ (∃ r, prngReg c r))

/-- The proof data of the pool's pipeline on core `c`: the arrays as the region finds them; after the body at point
    `t` each input's buffer at its block and the output's at `outsAt6`'s first component; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := rfl
theorem after6_2 (c : Dev nD) (t : Fin cfg6.N) : (dat6 V c).after 2 t = (outsAt6 V c t.val t.isLt).1 := rfl
theorem Phi6_eq (c : Dev nD) (t : Fin (cfg6.N + 1)) : (dat6 V c).Φ t = PhiS6 V c t.val (Nat.le_of_lt_succ t.isLt) := rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem before6_2_pos (c : Dev nD) (t : Fin cfg6.N) (h0 : t.val ≠ 0) (d) :
    (dat6 V c).before 2 t d = (outsAt6 V c (t.val - 1) (Nat.lt_of_le_of_lt (Nat.sub_le _ _) t.isLt)).1 := by
  have hN : t.val < 20 := lt_of_lt_of_eq t.isLt (show cfg6.N = 20 from N_6)
  rw [Dat.before_out_kept _ 2 rfl t h0 (Bool.eq_false_iff.mpr fun h => by have := (flush6_2 _).mp h; dsimp only at this; omega)
    (fun _ => rfl) (fun _ _ => rfl)]
  rfl

def bodyPre6 (c : Dev nD) (t : Fin cfg6.N) : sProp 𝕄 :=
  iprop((dat6 V c).Φ t.castSucc ∗ (dat6 V c).owesAt () t.castSucc
    ∗ (∃ d, owns (c : Thread nD τ) (win6_0.stage (cfg6.slots t 0)) fullShare ((dat6 V c).before 0 t d))
    ∗ (∃ d, owns (c : Thread nD τ) (win6_1.stage (cfg6.slots t 1)) fullShare ((dat6 V c).before 1 t d))
    ∗ (∃ d, owns (c : Thread nD τ) (win6_2.stage (cfg6.slots t 2)) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (win6_0.stage (cfg6.slots t 0)) fullShare ((dat6 V c).after 0 t)
    ∗ owns (c : Thread nD τ) (win6_1.stage (cfg6.slots t 1)) fullShare ((dat6 V c).after 1 t)
    ∗ owns (c : Thread nD τ) (win6_2.stage (cfg6.slots t 2)) fullShare ((dat6 V c).after 2 t))

set_option maxHeartbeats 4800000 in
/-- The body at any point: the inputs' memrefs hold their blocks, the output's and the scratch hold what the point
    before left unless the point is the first, so the run applies and leaves `outsAt6`; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [Phi6_eq, Phi6_eq, show (dat6 V c).owesAt () t.succ = (dat6 V c).owesAt () t.castSucc from rfl,
    show (dat6 V c).after 0 t = iblk6 V c 0 t from rfl, show (dat6 V c).after 1 t = iblk6 V c 1 t from rfl, after6_2]
  unfold PhiS6
  iintro ⟨⟨⟨⟨%ds, %hds, HS0⟩, Hr⟩, Hg⟩, Ho, ⟨%d0, H0⟩, ⟨%d1, H1⟩, ⟨%d2, H2⟩⟩
  have hp := outsAt6_eq V c t ((dat6 V c).before 2 t d2, ds) fun hn => Prod.ext (before6_2_pos V c t hn d2) (hds hn)
  rw [← hp]
  iapply run6 c (grid6.coords t) _ _ _ _ _ _ _ _ (hcond6_0 t) (hcond6_1 t) (iblk6 V c 0 t) (iblk6 V c 1 t) ((dat6 V c).before 2 t d2, ds) Set.univ _
  iframe H0 H1 H2 HS0
  iintro ⟨H0, H1, H2, HS0⟩
  iframe Hr Hg Ho H0 H1 H2
  iexists _; iframe HS0
  ipureintro; first | exact fun _ => rfl | exact fun _ => congrArg Prod.snd hp

theorem body_obligation6 (c : Dev nD) : BodyObligation (dat6 (F := F) V c) (defs₀ (F := F)) Variants.none () Set.univ := fun t => by
  rw [bigSep_W6, bigSep_W6]
  exact sound_body6 V c t

/-- What the launch hands the region is the invariant before the first point, -/
theorem hin6 (c : Dev nD) : Pipeline.ΦA spec6 c ⊢ (dat6 V c).Φ 0 := by
  rw [PhiA6_eq, Phi6_eq]; unfold PhiS6
  iintro ⟨⟨⟨%d, H⟩, Hr⟩, Hg⟩
  iframe Hr Hg
  iexists d; iframe H
  ipureintro; exact fun hn => absurd rfl hn

/-- and after the last point the invariant gives it back: what the scratch holds is forgotten. -/
theorem hout6 (c : Dev nD) : (dat6 V c).Φ (Fin.last cfg6.N) ⊢ Pipeline.ΦA spec6 c := by
  rw [PhiA6_eq, Phi6_eq]; unfold PhiS6
  iintro ⟨⟨⟨%d, -, H⟩, Hr⟩, Hg⟩
  iframe Hr Hg
  iexists d; iexact H

end Cert.KernelIdeal.Fr

end
-- ==== Proof.FrI.Rg7.lean ====
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1024x64 := Rect.unit (s := S1024x64) ![0, 0] S1024x64.size inb_S1024x64_S1024x64_0_0
abbrev r7_1 : Rect S64x2 := Rect.unit (s := S64x2) ![0, 0] S64x2.size inb_S64x2_S64x2_0_0
abbrev r7_2 : Rect S1x2 := Rect.unit (s := S1x2) ![0, 0] S1x2.size inb_S1x2_S1x2_0_0
abbrev r7_3 : Rect S1024x2 := Rect.unit (s := S1024x2) ![0, 0] S1024x2.size inb_S1024x2_S1024x2_0_0

def out7 (x0 : Vec F S1024x64 .f32) (x1 : Vec F S64x2 .f32) (x2 : Vec F S1x2 .f32) : Vec F S1024x2 .f32 :=
  View.canon [⟨r7_3, k7_pay1 (View.ld x0 r7_0) (View.ld x1 r7_1) (View.ld x2 r7_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out7 (iblk7 V c 0 t) (iblk7 V c 1 t) (iblk7 V c 2 t) := by dsimp only [dat7]

theorem before7 (c t) : (∀ d, (dat7 V c).before 0 t d = iblk7 V c 0 t) ∧ (∀ d, (dat7 V c).before 1 t d = iblk7 V c 1 t)
    ∧ ∀ d, (dat7 V c).before 2 t d = iblk7 V c 2 t := by
  refine ⟨?_, ?_, ?_⟩ <;> exact fun d =>
    ((dat7 V c).before_in_eq_fetched _ rfl (fun _ => rfl) (fun _ _ _ => rfl) (fun _ => rfl) t d).trans rfl

/-- The body reads its inputs whole and stores one payload over the whole output; whatever else is held (P, Q) comes back untouched. -/
theorem sound_kernel7 (c : Dev nD) {i arg0 harg0 arg1 harg1 arg2 harg2 arg3 harg3} {x0 : Vec F S1024x64 .f32} {x1 : Vec F S64x2 .f32}
    {x2 : Vec F S1x2 .f32} {D0 D1 D2 D3 : Type} {g : D3 → Vec F S1024x2 .f32} {P Q : sProp 𝕄} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (g d)))
      ⊢ wp frame (wpE defs₀ Variants.none c none) Set.univ (cc7__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2 ∗ owns c.tc arg3 fullShare (out7 x0 x1 x2)) := by
  simp only [cc7__matmul_bias_kernel_eq_skeleton]; unfold cc7__matmul_bias_kernel_skel owns
  iintro ⟨HP, HQ, ⟨%_, %f0, %h0, H0⟩, ⟨%_, %f1, %h1, H1⟩, ⟨%_, %f2, %h2, H2⟩, ⟨%_, %f3, -, H3⟩⟩
  subst h0 h1 h2
  sl_exec
  sl_step
  iframe HP HQ
  isplitl [H0]; · sl_close
  isplitl [H1]; · sl_close
  isplitl [H2]; · sl_close
  iexists _; isplitr; swap; · iexact H3
  ipureintro; exact View.read_writes_eq_canon _ _ _ (View.cover_of_tiled _ S1024x2.size (by rfl))

theorem body_obligation7 (c : Dev nD) : BodyObligation (dat7 (F := F) V c) (defs₀ (F := F)) Variants.none () Set.univ := fun t => by
  rw [bigSep_W7, bigSep_W7]
  simp only [before7 V c t, after7_3]
  sl_whnfR [defs₀, Defs.onTc]
  exact sound_kernel7 c

end Regions

end Cert.KernelIdeal.Fr

end
-- ==== Proof.FrI.Run.lean ====
/- The run of the graph-convolution program as its fourteen items in order, six stretches of host operations and
   eight kernel regions, with the buffers' contents named at every boundary between two items. -/
import proofs.«415254_j79637283602865_2_alg».proof.Proof.Gen.KernelIdeal.Launch
import proofs.«415254_j79637283602865_2_alg».proof.Proof.Gen.KernelIdeal.Skeleton
import proofs.«415254_j79637283602865_2_alg».proof.Proof.Gen.KernelIdeal.Points
import proofs.«415254_j79637283602865_2_alg».proof.Proof.Gen.KernelIdeal.Regions
import proofs.«415254_j79637283602865_2_alg».proof.Proof.FrI.Rg0
import proofs.«415254_j79637283602865_2_alg».proof.Proof.FrI.Rg1
import proofs.«415254_j79637283602865_2_alg».proof.Proof.FrI.Rg2
import proofs.«415254_j79637283602865_2_alg».proof.Proof.FrI.Rg3
import proofs.«415254_j79637283602865_2_alg».proof.Proof.FrI.Rg4
import proofs.«415254_j79637283602865_2_alg».proof.Proof.FrI.Rg5
import proofs.«415254_j79637283602865_2_alg».proof.Proof.FrI.Rg6
import proofs.«415254_j79637283602865_2_alg».proof.Proof.FrI.Rg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every core's buffers at one boundary. -/
abbrev Vals (F : FTy → Type) : Type := Dev nD → Valuation τ sig (Elt F)

/-- Region `p` entered at `Win`: its windows' arrays end at the region's final contents, every other buffer as entered. -/
def Wreg (p : Fin 8) (Win : Vals F) (dat : (c : Dev nD) → Dat τ (Elt F) Unit ℕ (UR sig nD τ) ℕ (cfgs p) c) : Vals F :=
  fun c => Pipeline.withArrays (cfgs p).spec c (Win c) fun w => (dat c).arrAt w (cfgs p).N

theorem Wreg_arr {p : Fin 8} (lf : Pipeline.LaunchFacts (nD := nD) (τ := τ) cfgs p) (Win : Vals F)
    (dat : (c : Dev nD) → Dat τ (Elt F) Unit ℕ (UR sig nD τ) ℕ (cfgs p) c) (c : Dev nD) (w : Fin (cfgs p).W) :
    Wreg p Win dat c (Proc.devRef .tc (Pipeline.arrRef (cfgs p).spec w)) = (dat c).arrAt w (cfgs p).N :=
  Pipeline.withArrays_arr _ lf.win.arr_inj c _ _ w

/-- `B` holds what `A` held at every buffer outside `l`. -/
def Keeps (A B : Valuation τ sig (Elt F)) (l : List (Ref sig .tc)) : Prop :=
  ∀ r, r ∉ l → B (Proc.devRef .tc r) = A (Proc.devRef .tc r)

theorem Keeps.trans {A B C : Valuation τ sig (Elt F)} {l l' : List (Ref sig .tc)} (h : Keeps A B l) (h' : Keeps B C l') :
    Keeps A C (l ++ l') := fun r hr =>
  (h' r fun e => hr (List.mem_append_right _ e)).trans (h r fun e => hr (List.mem_append_left _ e))

/-- A region changes only its output window's array. -/
theorem Wreg_keeps {p : Fin 8} (lf : Pipeline.LaunchFacts (nD := nD) (τ := τ) cfgs p) (Win : Vals F)
    (dat : (c : Dev nD) → Dat τ (Elt F) Unit ℕ (UR sig nD τ) ℕ (cfgs p) c) (c : Dev nD)
    (hA : ∀ w, (dat c).A w = Win c (Proc.devRef .tc (Pipeline.arrRef (cfgs p).spec w)))
    (wo : Fin (cfgs p).W) (hin : ∀ w, w ≠ wo → ((cfgs p).win w).isOut = false) :
    Keeps (Win c) (Wreg p Win dat c) [Pipeline.arrRef (cfgs p).spec wo] := fun r hr => by
  by_cases h : ∃ w, Pipeline.arrRef (cfgs p).spec w = r
  · obtain ⟨w, rfl⟩ := h
    exact (Wreg_arr lf Win dat c w).trans
      (((dat c).arrAt_in w (hin w fun e => hr (List.mem_singleton.mpr (congrArg _ e))) _).trans (hA w))
  · exact Pipeline.withArrays_of_ne _ c _ _ r fun w e => h ⟨w, e⟩

variable (m : (ℓ : Loc nD τ sig) → Buf (Elt F) ℓ) (ρ : Dev nD → PrngReg)

/-- A boundary's contents read at the TensorCore's references. -/
abbrev tc (W : Vals F) : (c : Dev nD) → (b : Ref sig .tc) → Buf (Elt F) ((c : Thread nD τ).loc b) := fun c b => W c b

abbrev W0 : Vals F := fun c b => (s₀ m ρ).mem ((c : Dev nD), b)
abbrev W1 : Vals F := fun c => StableHlo.after hostOps0 (W0 m ρ c)
abbrev V1 := tc (W1 m ρ)
abbrev W2 : Vals F := Wreg 0 (W1 m ρ) (dat0 (V1 m ρ))
abbrev V2 := tc (W2 m ρ)
abbrev W3 : Vals F := fun c => StableHlo.after hostOps1 (W2 m ρ c)
abbrev V3 := tc (W3 m ρ)
abbrev W4 : Vals F := Wreg 1 (W3 m ρ) (dat1 (V3 m ρ))
abbrev V4 := tc (W4 m ρ)
abbrev W5 : Vals F := Wreg 2 (W4 m ρ) (dat2 (V4 m ρ))
abbrev V5 := tc (W5 m ρ)
abbrev W6 : Vals F := fun c => StableHlo.after hostOps3 (W5 m ρ c)
abbrev V6 := tc (W6 m ρ)
abbrev W7 : Vals F := Wreg 3 (W6 m ρ) (dat3 (V6 m ρ))
abbrev V7 := tc (W7 m ρ)
abbrev W8 : Vals F := Wreg 4 (W7 m ρ) (dat4 (V7 m ρ))
abbrev V8 := tc (W8 m ρ)
abbrev W9 : Vals F := fun c => StableHlo.after hostOps5 (W8 m ρ c)
abbrev V9 := tc (W9 m ρ)
abbrev W10 : Vals F := Wreg 5 (W9 m ρ) (dat5 (V9 m ρ))
abbrev V10 := tc (W10 m ρ)
abbrev W11 : Vals F := fun c => StableHlo.after hostOps6 (W10 m ρ c)
abbrev V11 := tc (W11 m ρ)
abbrev W12 : Vals F := Wreg 6 (W11 m ρ) (dat6 (V11 m ρ))
abbrev V12 := tc (W12 m ρ)
abbrev W13 : Vals F := fun c => StableHlo.after hostOps7 (W12 m ρ c)
abbrev V13 := tc (W13 m ρ)
abbrev W14 : Vals F := Wreg 7 (W13 m ρ) (dat7 (V13 m ρ))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Kept

variable (c : Dev nD)

theorem k1 : Keeps (W0 m ρ c) (W1 m ρ c) hostOps0_W := fun _ h => StableHlo.after_of_writes_sub hostOps0 _ hostOps0_writes h
theorem k2 : Keeps (W1 m ρ c) (W2 m ρ c) [Pipeline.arrRef spec0 2] := Wreg_keeps launch0 _ _ c (A_eq0 _ c) (2 : Fin cfg0.W) (by decide)
theorem k3 : Keeps (W2 m ρ c) (W3 m ρ c) hostOps1_W := fun _ h => StableHlo.after_of_writes_sub hostOps1 _ hostOps1_writes h
theorem k4 : Keeps (W3 m ρ c) (W4 m ρ c) [Pipeline.arrRef spec1 4] := Wreg_keeps launch1 _ _ c (A_eq1 _ c) (4 : Fin cfg1.W) (by decide)
theorem k5 : Keeps (W4 m ρ c) (W5 m ρ c) [Pipeline.arrRef spec2 2] := Wreg_keeps launch2 _ _ c (A_eq2 _ c) (2 : Fin cfg2.W) (by decide)
theorem k6 : Keeps (W5 m ρ c) (W6 m ρ c) hostOps3_W := fun _ h => StableHlo.after_of_writes_sub hostOps3 _ hostOps3_writes h
theorem k7 : Keeps (W6 m ρ c) (W7 m ρ c) [Pipeline.arrRef spec3 4] := Wreg_keeps launch3 _ _ c (A_eq3 _ c) (4 : Fin cfg3.W) (by decide)
theorem k8 : Keeps (W7 m ρ c) (W8 m ρ c) [Pipeline.arrRef spec4 2] := Wreg_keeps launch4 _ _ c (A_eq4 _ c) (2 : Fin cfg4.W) (by decide)
theorem k9 : Keeps (W8 m ρ c) (W9 m ρ c) hostOps5_W := fun _ h => StableHlo.after_of_writes_sub hostOps5 _ hostOps5_writes h
theorem k10 : Keeps (W9 m ρ c) (W10 m ρ c) [Pipeline.arrRef spec5 4] := Wreg_keeps launch5 _ _ c (A_eq5 _ c) (4 : Fin cfg5.W) (by decide)
theorem k11 : Keeps (W10 m ρ c) (W11 m ρ c) hostOps6_W := fun _ h => StableHlo.after_of_writes_sub hostOps6 _ hostOps6_writes h
theorem k12 : Keeps (W11 m ρ c) (W12 m ρ c) [Pipeline.arrRef spec6 2] := Wreg_keeps launch6 _ _ c (A_eq6 _ c) (2 : Fin cfg6.W) (by decide)
theorem k13 : Keeps (W12 m ρ c) (W13 m ρ c) hostOps7_W := fun _ h => StableHlo.after_of_writes_sub hostOps7 _ hostOps7_writes h
theorem k14 : Keeps (W13 m ρ c) (W14 m ρ c) [Pipeline.arrRef spec7 3] := Wreg_keeps launch7 _ _ c (A_eq7 _ c) (3 : Fin cfg7.W) (by decide)

/-- The buffers some item may change. -/
abbrev wrAll : List (Ref sig .tc) :=
  hostOps0_W ++ ([Pipeline.arrRef spec0 2] ++ (hostOps1_W ++ ([Pipeline.arrRef spec1 4] ++ ([Pipeline.arrRef spec2 2] ++ (hostOps3_W ++ ([Pipeline.arrRef spec3 4] ++ ([Pipeline.arrRef spec4 2] ++ (hostOps5_W ++ ([Pipeline.arrRef spec5 4] ++ (hostOps6_W ++ ([Pipeline.arrRef spec6 2] ++ (hostOps7_W ++ ([Pipeline.arrRef spec7 3])))))))))))))

/-- From the launch to the return a buffer no item changes holds what it held. -/
theorem k0_14 : Keeps (W0 m ρ c) (W14 m ρ c) wrAll :=
  (k1 m ρ c).trans ((k2 m ρ c).trans ((k3 m ρ c).trans ((k4 m ρ c).trans ((k5 m ρ c).trans ((k6 m ρ c).trans ((k7 m ρ c).trans ((k8 m ρ c).trans ((k9 m ρ c).trans ((k10 m ρ c).trans ((k11 m ρ c).trans ((k12 m ρ c).trans ((k13 m ρ c).trans (k14 m ρ c)))))))))))))

/-- A final memory that holds the last boundary's contents holds, at a buffer no item changes, its launch contents. -/
theorem kept_end {s : (ℓ : Loc nD τ sig) → Buf (Elt F) ℓ}
    (hs : ∀ b ∈ Pipeline.ucRefs τ sig, s ((c : Thread nD τ).1, b) = W14 m ρ c b) (r : Ref sig .tc)
    (hu : ¬ (Proc.devRef .tc r : DevRef τ sig).isScoped) (h : r ∉ wrAll) :
    s ((c.tc : Thread nD τ).loc r) = m ((c.tc : Thread nD τ).loc r) :=
  (hs _ (mem_uc r hu)).trans (k0_14 m ρ c r h)

/-- Memory `s` holds every argument of core `c` as launched. -/
abbrev ArgsKept (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)

/-- Every argument is a buffer no item changes. -/
theorem args_kept {s : (ℓ : Loc nD τ sig) → Buf (Elt F) ℓ}
    (hs : ∀ b ∈ Pipeline.ucRefs τ sig, s ((c : Thread nD τ).1, b) = W14 m ρ c b) : ArgsKept m c s :=
  ⟨kept_end m ρ c hs main_arg0 (by decide) (by decide),
   kept_end m ρ c hs main_arg1 (by decide) (by decide),
   kept_end m ρ c hs main_arg2 (by decide) (by decide),
   kept_end m ρ c hs main_arg3 (by decide) (by decide),
   kept_end m ρ c hs main_arg4 (by decide) (by decide),
   kept_end m ρ c hs main_arg5 (by decide) (by decide),
   kept_end m ρ c hs main_arg6 (by decide) (by decide),
   kept_end m ρ c hs main_arg7 (by decide) (by decide),
   kept_end m ρ c hs main_arg8 (by decide) (by decide),
   kept_end m ρ c hs main_arg9 (by decide) (by decide),
   kept_end m ρ c hs main_arg10 (by decide) (by decide)⟩

end Kept

/-- Every pipeline's proof data, each at its region's entry contents. -/
def pdats : (p : Fin 8) → (c : Dev nD) → Dat τ (Elt F) Unit ℕ (UR sig nD τ) ℕ (cfgs p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region `p` as a segment of the run: entered with every buffer at `Win`, left with every buffer at `Wreg p Win`. -/
def reg (p : Fin 8) (lf : Pipeline.LaunchFacts (nD := nD) (τ := τ) cfgs p) (Win : Vals F)
    (hbody : ∀ c, Pipeline.BodyObligationLoose (pdats m ρ p c) (defs₀ (F := F)) 𝒱₀ () Set.univ)
    (hq : ∀ c w, (pdats m ρ p c).q w = fullShare)
    (hA : ∀ c w, (pdats m ρ p c).A w = Win c (Proc.devRef .tc (Pipeline.arrRef (cfgs p).spec w)))
    (howed : ∀ c t, (pdats m ρ p c).owed t = 0) (hrec : ∀ c x, x ∈ (pdats m ρ p c).recorded 0)
    (hΦi : ∀ c, Pipeline.ΦA (cfgs p).spec c ⊢ (pdats m ρ p c).Φ 0)
    (hΦo : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wreg p Win (pdats m ρ p) c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wreg p Win (pdats m ρ p) c b) ((pdats m ρ p c).arrAt · (cfgs p).N)
      (fun w => (Wreg_arr lf Win (pdats m ρ p) c w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

section Regs
set_option backward.isDefEq.respectTransparency.types false
def reg0 := reg m ρ 0 launch0 (W1 m ρ) (fun c => (body_obligation0 (V1 m ρ) c).loose) (fun _ _ => rfl) (fun _ _ => rfl) (fun _ _ => rfl) (fun _ _ => trivial) (fun _ => .rfl) (fun _ => .rfl)
def reg1 := reg m ρ 1 launch1 (W3 m ρ) (fun c => (body_obligation1 (V3 m ρ) c).loose) (fun _ _ => rfl) (fun _ _ => rfl) (fun _ _ => rfl) (fun _ _ => trivial) (fun _ => .rfl) (fun _ => .rfl)
def reg2 := reg m ρ 2 launch2 (W4 m ρ) (fun c => (body_obligation2 (V4 m ρ) c).loose) (fun _ _ => rfl) (fun _ _ => rfl) (fun _ _ => rfl) (fun _ _ => trivial) (fun _ => .rfl) (fun _ => .rfl)
def reg3 := reg m ρ 3 launch3 (W6 m ρ) (fun c => (body_obligation3 (V6 m ρ) c).loose) (fun _ _ => rfl) (fun _ _ => rfl) (fun _ _ => rfl) (fun _ _ => trivial) (fun _ => .rfl) (fun _ => .rfl)
def reg4 := reg m ρ 4 launch4 (W7 m ρ) (fun c => (body_obligation4 (V7 m ρ) c).loose) (fun _ _ => rfl) (fun _ _ => rfl) (fun _ _ => rfl) (fun _ _ => trivial) (fun _ => .rfl) (fun _ => .rfl)
def reg5 := reg m ρ 5 launch5 (W9 m ρ) (fun c => (body_obligation5 (V9 m ρ) c).loose) (fun _ _ => rfl) (fun _ _ => rfl) (fun _ _ => rfl) (fun _ _ => trivial) (fun _ => .rfl) (fun _ => .rfl)
def reg6 := reg m ρ 6 launch6 (W11 m ρ) (fun c => (body_obligation6 (V11 m ρ) c).loose) (fun _ _ => rfl) (fun _ _ => rfl) (fun _ _ => rfl) (fun _ _ => trivial) (hin6 (V11 m ρ)) (hout6 (V11 m ρ))
def reg7 := reg m ρ 7 launch7 (W13 m ρ) (fun c => (body_obligation7 (V13 m ρ) c).loose) (fun _ _ => rfl) (fun _ _ => rfl) (fun _ _ => rfl) (fun _ _ => trivial) (fun _ => .rfl) (fun _ => .rfl)
end Regs

/-- @main's 14 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ), .region (reg2 m ρ),
    .host (hseg hostOps3 hostOps3_sub hostOps3_fresh (W5 m ρ)), .region (reg3 m ρ), .region (reg4 m ρ),
    .host (hseg hostOps5 hostOps5_sub hostOps5_fresh (W8 m ρ)), .region (reg5 m ρ),
    .host (hseg hostOps6 hostOps6_sub hostOps6_fresh (W10 m ρ)), .region (reg6 m ρ),
    .host (hseg hostOps7 hostOps7_sub hostOps7_fresh (W12 m ρ)), .region (reg7 m ρ) ]

/-- @main is the run of the segments: both are the chain of the same fourteen fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      Prog.lift (.customCall (Pipeline.entry 2) ()),
      StableHlo.seq hostOps3,
      Prog.lift (.customCall (Pipeline.entry 3) ()),
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()) ] from rfl]
  rfl

set_option backward.isDefEq.respectTransparency.types false in
/-- Every weakly fair execution of @main terminates, nothing faulting, with every buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- Every final state has each argument array as launched. -/
theorem frame : θ_run defs (onTc (τ := τ) (main (F := F))) ⟨m, fun _ => 0, ρ⟩ (fun r => ∀ c : Dev nD, ArgsKept m c r.2.mem) :=
  (θ_run defs (onTc (τ := τ) (main (F := F))) ⟨m, fun _ => 0, ρ⟩).mono (fun r h c => args_kept m ρ c (h c)) (run_all m ρ)

end Cert.KernelIdeal.Fr

end
-- ==== Proof.Spec.Fns.lean ====
/- What each kernel region computes, as one function of whole arrays, index by index, over the extended reals. -/
import Idealize.ShloMosaic.PureOps.Ideal
import Idealize.ShloMosaic.Lib.ValueIdx

noncomputable section

namespace Cert.Spec

open Idealize.ShloMosaic Idealize.ShloMosaic.ValueIdx

abbrev M (a b : Nat) : Shape := ⟨2, ![a, b]⟩

abbrev zeroF : EReal := Ideal.ofBits .f32 0x00000000#32
abbrev oneF : EReal := Ideal.ofBits .f32 0x3F800000#32

/-- Matrix product: entry (a, n) is the sum over k of x (a, k) · w (k, n). -/
def mm {A K N : Nat} (x : (M A K).Idx → EReal) (w : (M K N).Idx → EReal) : (M A N).Idx → EReal :=
  fun i => ∑ k : Fin K, x (ix2 (i 0 : Fin A) k) * w (ix2 k (i 1 : Fin N))

/-- The layer's epilogue: max (agg + h · r + b, 0), r one value per row and b one per column. -/
def comb {A N : Nat} (agg h : (M A N).Idx → EReal) (r : (M A 1).Idx → EReal) (b : (M 1 N).Idx → EReal) :
    (M A N).Idx → EReal :=
  fun i => max (agg i + h i * r (ix2 (i 0 : Fin A) (0 : Fin 1)) + b (ix2 (0 : Fin 1) (i 1 : Fin N))) zeroF

/-- Row t counts for graph g exactly when its id word is g's. -/
def hot {T : Nat} (ids : (M T 1).Idx → BitVec 32) (t : Fin T) (g : Nat) : EReal :=
  if ids (ix2 t (0 : Fin 1)) = BitVec.ofNat 32 g then 1 else 0

def poolSum {T G H : Nat} (h : (M T H).Idx → EReal) (ids : (M T 1).Idx → BitVec 32) : (M G H).Idx → EReal :=
  fun i => ∑ t : Fin T, hot ids t (i 0 : Fin G).val * h (ix2 t (i 1 : Fin H))

def poolCnt {T G : Nat} (ids : (M T 1).Idx → BitVec 32) : (M G 1).Idx → EReal :=
  fun i => ∑ t : Fin T, hot ids t (i 0 : Fin G).val * 1

/-- The mean over each graph's rows: the sum divided by max (count, 1). -/
def pool {T G H : Nat} (h : (M T H).Idx → EReal) (ids : (M T 1).Idx → BitVec 32) : (M G H).Idx → EReal :=
  fun i => Ideal.div (poolSum (G := G) h ids i) (max (poolCnt (G := G) ids (ix2 (i 0 : Fin G) (0 : Fin 1))) oneF)

/-- Matrix product plus a bias row. -/
def mmb {A K N : Nat} (x : (M A K).Idx → EReal) (w : (M K N).Idx → EReal) (b : (M 1 N).Idx → EReal) :
    (M A N).Idx → EReal :=
  fun i => mm x w i + b (ix2 (0 : Fin 1) (i 1 : Fin N))

end Cert.Spec

end
-- ==== Proof.Val.Mm.lean ====
import proofs.«415254_j79637283602865_2_alg».proof.Proof.Gen.KernelIdeal.Skeleton
import proofs.«415254_j79637283602865_2_alg».proof.Proof.Gen.KernelIdeal.Launch
import proofs.«415254_j79637283602865_2_alg».proof.Proof.Gen.KernelIdeal.Points
import proofs.«415254_j79637283602865_2_alg».proof.Proof.Spec.Fns
import proofs.«415254_j79637283602865_2_alg».proof.Proof.FrI.Rg0
import proofs.«415254_j79637283602865_2_alg».proof.Proof.FrI.Rg2
import proofs.«415254_j79637283602865_2_alg».proof.Proof.FrI.Rg4
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.KernelVsHost

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off_mm : (![0, 0] : Fin 2 → Nat) = fun _ => 0 := funext fun a => by fin_cases a <;> rfl

/-- A product into the zero accumulator is the plain matrix product, and the casts change nothing at the extended reals. -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) :=
  (congrFun (matmul_zero_eq_dotGeneral _ none _ _) _).trans (StackMember.dotGeneral_plain_apply none _ _ p q)

theorem pay2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  simp only [shapeCast_self]
  exact (congrFun (matmul_zero_eq_dotGeneral _ none _ _) _).trans (StackMember.dotGeneral_plain_apply none _ _ p q)

/-- A block of a rows of x at block row r, times all of w, is the same block of rows of the product x · w: an element of a block
    sits in its array at block index times block size plus its own coordinate (h0, h1, h2), and the blocks sit at (r, 0), (0, 0), (r, 0). -/
theorem mm_rows {a A K N : ℕ} {pay : ((Spec.M a K).Idx → EReal) → ((Spec.M K N).Idx → EReal) → (Spec.M a N).Idx → EReal}
    (hpay : ∀ x0 x1 p q, pay x0 x1 (ix2 p q) = ∑ k : Fin K, x0 (ix2 p k) * x1 (ix2 k q))
    (X : (Spec.M A K).Idx → EReal) (W : (Spec.M K N).Idx → EReal)
    {e0 : (Spec.M a K).Idx → (Spec.M A K).Idx} {e1 : (Spec.M K N).Idx → (Spec.M K N).Idx} {e2 : (Spec.M a N).Idx → (Spec.M A N).Idx}
    {i0 i1 i2 : Fin 2 → ℕ} (r : ℕ)
    (h0 : ∀ y b, (e0 y b : ℕ) = i0 b * ![a, K] b + y b) (h1 : ∀ y b, (e1 y b : ℕ) = i1 b * ![K, N] b + y b)
    (h2 : ∀ y b, (e2 y b : ℕ) = i2 b * ![a, N] b + y b)
    (hi : i0 0 = r ∧ i0 1 = 0 ∧ i1 0 = 0 ∧ i1 1 = 0 ∧ i2 0 = r ∧ i2 1 = 0) (j : (Spec.M a N).Idx) :
    pay (fun y => X (e0 y)) (fun y => W (e1 y)) j = Spec.mm X W (e2 j) := by
  obtain ⟨e00, e01, e10, e11, e20, e21⟩ := hi
  obtain ⟨p, q, rfl⟩ : ∃ (p : Fin a) (q : Fin N), j = ix2 p q := ⟨j 0, j 1, eq_ix2 j⟩
  rw [hpay]
  refine Finset.sum_congr rfl fun k _ => ?_
  have E0 : e0 (ix2 p k) = ix2 (e2 (ix2 p q) 0 : Fin A) k := Shape.idx_ext₂
    (by rw [h0, h2, e00, e20]; rfl) (by rw [h0, e01, Nat.zero_mul, Nat.zero_add])
  have E1 : e1 (ix2 k q) = ix2 k (e2 (ix2 p q) 1 : Fin N) := Shape.idx_ext₂
    (by rw [h1, e10, Nat.zero_mul, Nat.zero_add]) (by rw [h1, h2, e11, e21]; rfl)
  rw [E0, E1]; rfl

/-- Blocks of a rows at block rows 0 … n − 1 cover an array of at most n · a rows: row i lies in block i / a, at row i % a of it. -/
theorem rows_cover_mm {n a A N : ℕ} (hn : A ≤ n * a) {e : Fin n → (Spec.M a N).Idx → (Spec.M A N).Idx} {ix : Fin n → Fin 2 → ℕ}
    (he : ∀ t y b, (e t y b : ℕ) = ix t b * ![a, N] b + y b) (hix : ∀ t, ix t 0 = t.val ∧ ix t 1 = 0) (i : (Spec.M A N).Idx) :
    ∃ t y, e t y = i := by
  have hi : (i 0 : ℕ) < A := (i 0).isLt
  have ha : 0 < a := Nat.pos_of_ne_zero (by rintro rfl; omega)
  refine ⟨⟨(i 0 : ℕ) / a, Nat.div_lt_of_lt_mul (by rw [Nat.mul_comm]; omega)⟩, ix2 ⟨(i 0 : ℕ) % a, Nat.mod_lt _ ha⟩ (i 1 : Fin N), Shape.idx_ext₂ ?_ ?_⟩
  · rw [he, (hix _).1]; exact Nat.div_add_mod' _ _
  · rw [he, (hix _).2, Nat.zero_mul, Nat.zero_add]

/-- The three products have the same index maps over the grid of 20: the rows' and the result's blocks at block row t, the weights' at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem final0 (c : Dev nD) : (Fr.dat0 (F := Ideal) V c).arrAt 2 cfg0.N = Spec.mm (V c main_arg0) (V c main_arg3) :=
  (Fr.dat0 V c).arrAt_eq_of_cover 2 _ (fun t _ => by
      show (cfg0.win 2).cut (grid0.coords t) ((Fr.dat0 V c).after 2 t) = _
      rw [Fr.after0_2]
      unfold Fr.out0
      rw [View.canon_unit_zero zero_off_mm]
      simp only [View.ld_unit_zero (S := S5000x128) zero_off_mm, View.ld_unit_zero (S := S128x64) zero_off_mm]
      funext j
      exact mm_rows pay0_apply (V c main_arg0) (V c main_arg3) t.val (win0_0.rect_emb_val t)
        (win0_1.rect_emb_val t) (win0_2.rect_emb_val t) (idx_facts0 t) j)
    fun i => by
      obtain ⟨t, y, h⟩ := rows_cover_mm (n := cfg0.N) (by decide) (fun t => win0_2.rect_emb_val t)
        (fun t => (idx_facts0 t).2.2.2.2) i
      exact ⟨t, flush0_2 t, h ▸ ((cfg0.win 2).blk t).view.emb_mem_set y⟩

theorem final2 (c : Dev nD) : (Fr.dat2 (F := Ideal) V c).arrAt 2 cfg2.N = Spec.mm (V c main_v44) (V c main_arg5) :=
  (Fr.dat2 V c).arrAt_eq_of_cover 2 _ (fun t _ => by
      show (cfg2.win 2).cut (grid2.coords t) ((Fr.dat2 V c).after 2 t) = _
      rw [Fr.after2_2]
      unfold Fr.out2
      rw [View.canon_unit_zero zero_off_mm]
      simp only [View.ld_unit_zero (S := S5000x64) zero_off_mm, View.ld_unit_zero (S := S64x64) zero_off_mm]
      funext j
      exact mm_rows pay2_apply (V c main_v44) (V c main_arg5) t.val (win2_0.rect_emb_val t)
        (win2_1.rect_emb_val t) (win2_2.rect_emb_val t) (idx_facts0 t) j)
    fun i => by
      obtain ⟨t, y, h⟩ := rows_cover_mm (n := cfg2.N) (by decide) (fun t => win2_2.rect_emb_val t)
        (fun t => (idx_facts0 t).2.2.2.2) i
      exact ⟨t, flush2_2 t, h ▸ ((cfg2.win 2).blk t).view.emb_mem_set y⟩

theorem final4 (c : Dev nD) : (Fr.dat4 (F := Ideal) V c).arrAt 2 cfg4.N = Spec.mm (V c main_v60) (V c main_arg7) :=
  (Fr.dat4 V c).arrAt_eq_of_cover 2 _ (fun t _ => by
      show (cfg4.win 2).cut (grid4.coords t) ((Fr.dat4 V c).after 2 t) = _
      rw [Fr.after4_2]
      unfold Fr.out4
      rw [View.canon_unit_zero zero_off_mm]
      simp only [View.ld_unit_zero (S := S5000x64) zero_off_mm, View.ld_unit_zero (S := S64x64) zero_off_mm]
      funext j
      exact mm_rows pay2_apply (V c main_v60) (V c main_arg7) t.val (win4_0.rect_emb_val t)
        (win4_1.rect_emb_val t) (win4_2.rect_emb_val t) (idx_facts0 t) j)
    fun i => by
      obtain ⟨t, y, h⟩ := rows_cover_mm (n := cfg4.N) (by decide) (fun t => win4_2.rect_emb_val t)
        (fun t => (idx_facts0 t).2.2.2.2) i
      exact ⟨t, flush4_2 t, h ▸ ((cfg4.win 2).blk t).view.emb_mem_set y⟩

end Cert.KernelIdeal.Val

end
-- ==== Proof.Val.Cb.lean ====
import proofs.«415254_j79637283602865_2_alg».proof.Proof.Gen.KernelIdeal.Skeleton
import proofs.«415254_j79637283602865_2_alg».proof.Proof.Gen.KernelIdeal.Launch
import proofs.«415254_j79637283602865_2_alg».proof.Proof.Gen.KernelIdeal.Points
import proofs.«415254_j79637283602865_2_alg».proof.Proof.Spec.Fns
import proofs.«415254_j79637283602865_2_alg».proof.Proof.FrI.Rg1
import proofs.«415254_j79637283602865_2_alg».proof.Proof.FrI.Rg3
import proofs.«415254_j79637283602865_2_alg».proof.Proof.FrI.Rg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off_cb : (![0, 0] : Fin 2 → Nat) = fun _ => 0 := funext fun a => by fin_cases a <;> rfl

/-- A column of one value per row, broadcast along each row, reads at (p, c) the column's value of row p. -/
theorem broadcastTo_column_cb {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The epilogue's stored value at (p, q): the same-shape casts are the identity and the two broadcasts read row p of the column, column q of the row. -/
theorem pay1_apply (x0 x1 : Vec Ideal S5000x64 .f32) (x2 : Vec Ideal S5000x1 .f32) (x3 : Vec Ideal S1x64 .f32) (p : Fin 5000) (q : Fin 64) :
    k1_pay1 (F := Ideal) x0 x1 x2 x3 (ix2 p q)
      = max (x0 (ix2 p q) + x1 (ix2 p q) * x2 (ix2 p (0 : Fin 1)) + x3 (ix2 (0 : Fin 1) q)) Spec.zeroF := by
  unfold k1_pay1
  simp only [shapeCast_self]
  show max (x0 (ix2 p q) + x1 (ix2 p q) * broadcastTo S5000x64 x2 broadcasts_S5000x1_S5000x64 (ix2 p q)
      + broadcastTo S5000x64 x3 broadcasts_S1x64_S5000x64 (ix2 p q)) Spec.zeroF = _
  rw [broadcastTo_column_cb, broadcastTo_1b_ab_apply]

/-- Blocks of a rows of agg, h and the column r at block row t, with the whole bias row b, give the same block of rows of the epilogue:
    an element of a block sits in its array at block index times block size plus its own coordinate (h0 … h4). -/
theorem comb_rows {a A N : ℕ}
    {pay : ((Spec.M a N).Idx → EReal) → ((Spec.M a N).Idx → EReal) → ((Spec.M a 1).Idx → EReal) → ((Spec.M 1 N).Idx → EReal) → (Spec.M a N).Idx → EReal}
    (hpay : ∀ x0 x1 x2 x3 p q, pay x0 x1 x2 x3 (ix2 p q) = max (x0 (ix2 p q) + x1 (ix2 p q) * x2 (ix2 p (0 : Fin 1)) + x3 (ix2 (0 : Fin 1) q)) Spec.zeroF)
    (AGG H : (Spec.M A N).Idx → EReal) (R : (Spec.M A 1).Idx → EReal) (B : (Spec.M 1 N).Idx → EReal)
    {e0 e1 e4 : (Spec.M a N).Idx → (Spec.M A N).Idx} {e2 : (Spec.M a 1).Idx → (Spec.M A 1).Idx} {e3 : (Spec.M 1 N).Idx → (Spec.M 1 N).Idx}
    {i0 i1 i2 i3 i4 : Fin 2 → ℕ} (r : ℕ)
    (h0 : ∀ y b, (e0 y b : ℕ) = i0 b * ![a, N] b + y b) (h1 : ∀ y b, (e1 y b : ℕ) = i1 b * ![a, N] b + y b)
    (h2 : ∀ y b, (e2 y b : ℕ) = i2 b * ![a, 1] b + y b) (h3 : ∀ y b, (e3 y b : ℕ) = i3 b * ![1, N] b + y b)
    (h4 : ∀ y b, (e4 y b : ℕ) = i4 b * ![a, N] b + y b)
    (hi : i0 0 = r ∧ i0 1 = 0 ∧ i1 0 = r ∧ i1 1 = 0 ∧ i2 0 = r ∧ i2 1 = 0 ∧ i3 0 = 0 ∧ i3 1 = 0) (ho : i4 0 = r ∧ i4 1 = 0)
    (j : (Spec.M a N).Idx) :
    pay (fun y => AGG (e0 y)) (fun y => H (e1 y)) (fun y => R (e2 y)) (fun y => B (e3 y)) j = Spec.comb AGG H R B (e4 j) := by
  obtain ⟨e00, e01, e10, e11, e20, e21, e30, e31⟩ := hi
  obtain ⟨p, q, rfl⟩ : ∃ (p : Fin a) (q : Fin N), j = ix2 p q := ⟨j 0, j 1, eq_ix2 j⟩
  rw [hpay]
  have E0 : e0 (ix2 p q) = e4 (ix2 p q) := Shape.idx_ext₂ (by rw [h0, h4, e00, ho.1]) (by rw [h0, h4, e01, ho.2])
  have E1 : e1 (ix2 p q) = e4 (ix2 p q) := Shape.idx_ext₂ (by rw [h1, h4, e10, ho.1]) (by rw [h1, h4, e11, ho.2])
  have E2 : e2 (ix2 p (0 : Fin 1)) = ix2 (e4 (ix2 p q) 0 : Fin A) (0 : Fin 1) := Shape.idx_ext₂
    (by rw [h2, h4, e20, ho.1]; rfl) (by rw [h2, e21, Nat.zero_mul, Nat.zero_add])
  have E3 : e3 (ix2 (0 : Fin 1) q) = ix2 (0 : Fin 1) (e4 (ix2 p q) 1 : Fin N) := Shape.idx_ext₂
    (by rw [h3, e30, Nat.zero_mul, Nat.zero_add]) (by rw [h3, h4, e31, ho.2]; rfl)
  rw [E0, E1, E2, E3]; rfl

/-- Blocks of a rows at block rows 0 … n − 1 cover an array of at most n · a rows: row i lies in block i / a, at row i % a of it. -/
theorem rows_cover_cb {n a A N : ℕ} (hn : A ≤ n * a) {e : Fin n → (Spec.M a N).Idx → (Spec.M A N).Idx} {ix : Fin n → Fin 2 → ℕ}
    (he : ∀ t y b, (e t y b : ℕ) = ix t b * ![a, N] b + y b) (hix : ∀ t, ix t 0 = t.val ∧ ix t 1 = 0) (i : (Spec.M A N).Idx) :
    ∃ t y, e t y = i := by
  have hi : (i 0 : ℕ) < A := (i 0).isLt
  have ha : 0 < a := Nat.pos_of_ne_zero (by rintro rfl; omega)
  refine ⟨⟨(i 0 : ℕ) / a, Nat.div_lt_of_lt_mul (by rw [Nat.mul_comm]; omega)⟩, ix2 ⟨(i 0 : ℕ) % a, Nat.mod_lt _ ha⟩ (i 1 : Fin N), Shape.idx_ext₂ ?_ ?_⟩
  · rw [he, (hix _).1]; exact Nat.div_add_mod' _ _
  · rw [he, (hix _).2, Nat.zero_mul, Nat.zero_add]

/-- The three epilogues have the same index maps over the grid of 20: the three row-block windows and the result's at block row t, the bias row's at 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)
theorem idx_out1 : ∀ t : Fin cfg1.N, win1_4.index t (0 : Fin 2) = t.val ∧ win1_4.index t (1 : Fin 2) = 0 :=
  (by decide +kernel : ∀ t : Fin grid1.N, _)

theorem final1 (c : Dev nD) : (Fr.dat1 (F := Ideal) V c).arrAt 4 cfg1.N = Spec.comb (V c main_v42) (V c main_v29) (V c main_v28) (V c main_v43) :=
  (Fr.dat1 V c).arrAt_eq_of_cover 4 _ (fun t _ => by
      show (cfg1.win 4).cut (grid1.coords t) ((Fr.dat1 V c).after 4 t) = _
      rw [Fr.after1_4]
      unfold Fr.out1
      rw [View.canon_unit_zero zero_off_cb]
      simp only [View.ld_unit_zero (S := S5000x64) zero_off_cb, View.ld_unit_zero (S := S5000x1) zero_off_cb, View.ld_unit_zero (S := S1x64) zero_off_cb]
      funext j
      exact comb_rows (a := 5000) (A := 100000) (N := 64) pay1_apply (V c main_v42) (V c main_v29) (V c main_v28) (V c main_v43) t.val
        (win1_0.rect_emb_val t) (win1_1.rect_emb_val t) (win1_2.rect_emb_val t) (win1_3.rect_emb_val t) (win1_4.rect_emb_val t)
        (idx_facts1 t) (idx_out1 t) j)
    fun i => by
      obtain ⟨t, y, h⟩ := rows_cover_cb (n := cfg1.N) (a := 5000) (A := 100000) (N := 64) (by decide) (fun t => win1_4.rect_emb_val t) idx_out1 i
      exact ⟨t, flush1_4 t, h ▸ ((cfg1.win 4).blk t).view.emb_mem_set y⟩

theorem final3 (c : Dev nD) : (Fr.dat3 (F := Ideal) V c).arrAt 4 cfg3.N = Spec.comb (V c main_v58) (V c main_v45) (V c main_v28) (V c main_v59) :=
  (Fr.dat3 V c).arrAt_eq_of_cover 4 _ (fun t _ => by
      show (cfg3.win 4).cut (grid3.coords t) ((Fr.dat3 V c).after 4 t) = _
      rw [Fr.after3_4]
      unfold Fr.out3
      rw [View.canon_unit_zero zero_off_cb]
      simp only [View.ld_unit_zero (S := S5000x64) zero_off_cb, View.ld_unit_zero (S := S5000x1) zero_off_cb, View.ld_unit_zero (S := S1x64) zero_off_cb]
      funext j
      exact comb_rows (a := 5000) (A := 100000) (N := 64) pay1_apply (V c main_v58) (V c main_v45) (V c main_v28) (V c main_v59) t.val
        (win3_0.rect_emb_val t) (win3_1.rect_emb_val t) (win3_2.rect_emb_val t) (win3_3.rect_emb_val t) (win3_4.rect_emb_val t)
        (idx_facts1 t) (idx_out1 t) j)
    fun i => by
      obtain ⟨t, y, h⟩ := rows_cover_cb (n := cfg3.N) (a := 5000) (A := 100000) (N := 64) (by decide) (fun t => win3_4.rect_emb_val t) idx_out1 i
      exact ⟨t, flush3_4 t, h ▸ ((cfg3.win 4).blk t).view.emb_mem_set y⟩

theorem final5 (c : Dev nD) : (Fr.dat5 (F := Ideal) V c).arrAt 4 cfg5.N = Spec.comb (V c main_v74) (V c main_v61) (V c main_v28) (V c main_v75) :=
  (Fr.dat5 V c).arrAt_eq_of_cover 4 _ (fun t _ => by
      show (cfg5.win 4).cut (grid5.coords t) ((Fr.dat5 V c).after 4 t) = _
      rw [Fr.after5_4]
      unfold Fr.out5
      rw [View.canon_unit_zero zero_off_cb]
      simp only [View.ld_unit_zero (S := S5000x64) zero_off_cb, View.ld_unit_zero (S := S5000x1) zero_off_cb, View.ld_unit_zero (S := S1x64) zero_off_cb]
      funext j
      exact comb_rows (a := 5000) (A := 100000) (N := 64) pay1_apply (V c main_v74) (V c main_v61) (V c main_v28) (V c main_v75) t.val
        (win5_0.rect_emb_val t) (win5_1.rect_emb_val t) (win5_2.rect_emb_val t) (win5_3.rect_emb_val t) (win5_4.rect_emb_val t)
        (idx_facts1 t) (idx_out1 t) j)
    fun i => by
      obtain ⟨t, y, h⟩ := rows_cover_cb (n := cfg5.N) (a := 5000) (A := 100000) (N := 64) (by decide) (fun t => win5_4.rect_emb_val t) idx_out1 i
      exact ⟨t, flush5_4 t, h ▸ ((cfg5.win 4).blk t).view.emb_mem_set y⟩

end Cert.KernelIdeal.Val

end
-- ==== Proof.Val.Mmb.lean ====
import proofs.«415254_j79637283602865_2_alg».proof.Proof.Gen.KernelIdeal.Skeleton
import proofs.«415254_j79637283602865_2_alg».proof.Proof.Gen.KernelIdeal.Launch
import proofs.«415254_j79637283602865_2_alg».proof.Proof.Gen.KernelIdeal.Points
import proofs.«415254_j79637283602865_2_alg».proof.Proof.Spec.Fns
import proofs.«415254_j79637283602865_2_alg».proof.Proof.FrI.Rg7
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.KernelVsHost

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off_mmb : (![0, 0] : Fin 2 → Nat) = fun _ => 0 := funext fun a => by fin_cases a <;> rfl

/-- The product into the zero accumulator is the plain matrix product, the casts change nothing at the extended reals, and the
    broadcast bias row is read at column q. -/
theorem pay7_apply (x0 : Vec Ideal S1024x64 .f32) (x1 : Vec Ideal S64x2 .f32) (x2 : Vec Ideal S1x2 .f32) (p : Fin 1024) (q : Fin 2) :
    k7_pay1 (F := Ideal) x0 x1 x2 (ix2 p q) = (∑ k : Fin 64, x0 (ix2 p k) * x1 (ix2 k q)) + x2 (ix2 (0 : Fin 1) q) := by
  unfold k7_pay1
  simp only [shapeCast_self]
  rw [addf_apply, broadcastTo_1b_ab_apply]
  exact congrArg (· + _) ((congrFun (matmul_zero_eq_dotGeneral _ none _ _) _).trans (StackMember.dotGeneral_plain_apply none _ _ p q))

/-- A block at block index (0, 0) that is as large as its array is the array: an element of a block sits at block index times
    block size plus its own coordinate. -/
theorem whole_emb {s : Fin 2 → ℕ} {e : ((b : Fin 2) → Fin (s b)) → (b : Fin 2) → Fin (s b)} {ix : Fin 2 → ℕ}
    (h : ∀ y b, (e y b : ℕ) = ix b * s b + y b) (h0 : ix 0 = 0) (h1 : ix 1 = 0) (y : (b : Fin 2) → Fin (s b)) : e y = y :=
  Shape.idx_ext₂ (by rw [h, h0, Nat.zero_mul, Nat.zero_add]) (by rw [h, h1, Nat.zero_mul, Nat.zero_add])

/-- When every block is its whole array, the stored block is the biased product of the arrays themselves. -/
theorem mmb_whole {A K N : ℕ}
    {pay : ((Spec.M A K).Idx → EReal) → ((Spec.M K N).Idx → EReal) → ((Spec.M 1 N).Idx → EReal) → (Spec.M A N).Idx → EReal}
    (hpay : ∀ x0 x1 x2 p q, pay x0 x1 x2 (ix2 p q) = (∑ k : Fin K, x0 (ix2 p k) * x1 (ix2 k q)) + x2 (ix2 (0 : Fin 1) q))
    (X : (Spec.M A K).Idx → EReal) (W : (Spec.M K N).Idx → EReal) (B : (Spec.M 1 N).Idx → EReal)
    {e0 : (Spec.M A K).Idx → (Spec.M A K).Idx} {e1 : (Spec.M K N).Idx → (Spec.M K N).Idx} {e2 : (Spec.M 1 N).Idx → (Spec.M 1 N).Idx}
    {e3 : (Spec.M A N).Idx → (Spec.M A N).Idx} (E0 : ∀ y, e0 y = y) (E1 : ∀ y, e1 y = y) (E2 : ∀ y, e2 y = y) (E3 : ∀ y, e3 y = y)
    (j : (Spec.M A N).Idx) :
    pay (fun y => X (e0 y)) (fun y => W (e1 y)) (fun y => B (e2 y)) j = Spec.mmb X W B (e3 j) := by
  obtain ⟨p, q, rfl⟩ : ∃ (p : Fin A) (q : Fin N), j = ix2 p q := ⟨j 0, j 1, eq_ix2 j⟩
  simp only [E0, E1, E2, E3]
  rw [hpay]; rfl

theorem idx_facts7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem final7 (c : Dev nD) : (Fr.dat7 (F := Ideal) V c).arrAt 3 cfg7.N = Spec.mmb (V c main_v78) (V c main_arg9) (V c main_v79) :=
  (Fr.dat7 V c).arrAt_eq_of_cover 3 _ (fun t _ => by
      show (cfg7.win 3).cut (grid7.coords t) ((Fr.dat7 V c).after 3 t) = _
      rw [Fr.after7_3]
      unfold Fr.out7
      rw [View.canon_unit_zero zero_off_mmb]
      simp only [View.ld_unit_zero (S := S1024x64) zero_off_mmb, View.ld_unit_zero (S := S64x2) zero_off_mmb, View.ld_unit_zero (S := S1x2) zero_off_mmb]
      obtain ⟨e0, e1, e2, e3, e4, e5, e6, e7⟩ := idx_facts7 t
      funext j
      exact mmb_whole (A := 1024) (K := 64) (N := 2) pay7_apply (V c main_v78) (V c main_arg9) (V c main_v79) (whole_emb (win7_0.rect_emb_val t) e0 e1)
        (whole_emb (win7_1.rect_emb_val t) e2 e3) (whole_emb (win7_2.rect_emb_val t) e4 e5) (whole_emb (win7_3.rect_emb_val t) e6 e7) j)
    fun i => ⟨t7_0, flush7_3 t7_0, whole_emb (win7_3.rect_emb_val t7_0) (idx_facts7 _).2.2.2.2.2.2.1 (idx_facts7 _).2.2.2.2.2.2.2 i ▸
      ((cfg7.win 3).blk t7_0).view.emb_mem_set i⟩

end Cert.KernelIdeal.Val

end
-- ==== Proof.Val.PoolMath.lean ====
import proofs.«415254_j79637283602865_2_alg».proof.Proof.Gen.KernelIdeal.Skeleton
import proofs.«415254_j79637283602865_2_alg».proof.Proof.Spec.Fns
import Idealize.ShloMosaic.PureOps.Ideal.Laws
import Idealize.ShloMosaic.Lib.ValueIdx
import Idealize.ShloMosaic.Lib.Pipeline.Value

noncomputable section

open scoped BigOperators

namespace Cert.KernelIdeal.Val

open Idealize.ShloMosaic Idealize.ShloMosaic.ValueIdx Cert.KernelIdeal Cert.KernelIdeal.Gen

/-- A one-bit word widened to 32 bits reads, signed, as 1 or 0. -/
theorem toInt_setWidth_ofBool (b : Bool) : ((BitVec.ofBool b).setWidth 32).toInt = if b then 1 else 0 := by
  cases b <;> decide

/-- The one-hot of a tile's ids against the graph numbers, at (r, g): whether row r's id is g's word. -/
theorem pool_pay3_apply (ids : Vec Ideal S5000x1 .i32) (r : Fin 5000) (g : Fin 1024) :
    k6_pay3 (F := Ideal) ids (ix2 r g) = Spec.hot ids r g.val := by
  have h6 : broadcastTo S5000x1024 (shapeCast S5000x1 ids shapeCasts_S5000x1_S5000x1) broadcasts_S5000x1_S5000x1024 (ix2 r g)
      = ids (ix2 r (0 : Fin 1)) := by
    rw [shapeCast_self]
    exact broadcastTo_apply ids broadcasts_S5000x1_S5000x1024 (ix2 r g) (ix2 r (0 : Fin 1)) (fun a => by
      match a with
      | ⟨0, _⟩ => rfl
      | ⟨1, _⟩ => rfl)
  have h7 : broadcastTo S5000x1024 (iota .tc S1x1024 32 [1] iota_S1x1024_d1_w32) broadcasts_S1x1024_S5000x1024 (ix2 r g)
      = BitVec.ofNat 32 g.val := by
    refine (broadcastTo_apply _ broadcasts_S1x1024_S5000x1024 (ix2 r g) (ix2 (0 : Fin 1) g) (fun a => by
      match a with
      | ⟨0, _⟩ => rfl
      | ⟨1, _⟩ => rfl)).trans ?_
    exact iota_single_apply .tc S1x1024 32 1 iota_S1x1024_d1_w32 (ix2 (0 : Fin 1) g)
  show ((((IntOp.cmpi .eq (broadcastTo S5000x1024 (shapeCast S5000x1 ids shapeCasts_S5000x1_S5000x1) broadcasts_S5000x1_S5000x1024 (ix2 r g))
      (broadcastTo S5000x1024 (iota .tc S1x1024 32 [1] iota_S1x1024_d1_w32) broadcasts_S1x1024_S5000x1024 (ix2 r g))).setWidth 32).toInt : ℝ) : EReal) = _
  rw [h6, h7]
  show ((((BitVec.ofBool (ids (ix2 r (0 : Fin 1)) == BitVec.ofNat 32 g.val)).setWidth 32).toInt : ℝ) : EReal) = _
  rw [toInt_setWidth_ofBool]
  unfold Spec.hot
  by_cases h : ids (ix2 r (0 : Fin 1)) = BitVec.ofNat 32 g.val
  · rw [if_pos h, if_pos (by simpa using h)]; simp
  · rw [if_neg h, if_neg (by simpa using h)]; simp

theorem lhs4_0 (i : S1024x64.Idx) (q : dot_S5000x1024_S5000x64_S1024x64_0_0_1_1_n_n.contr.Idx) :
    (dot_S5000x1024_S5000x64_S1024x64_0_0_1_1_n_n.lhsIdx i q 0).val = (q ⟨0, by decide⟩).val :=
  dot_S5000x1024_S5000x64_S1024x64_0_0_1_1_n_n.lhsIdx_val_of_single rfl i q
theorem lhs4_1 (i : S1024x64.Idx) (q : dot_S5000x1024_S5000x64_S1024x64_0_0_1_1_n_n.contr.Idx) :
    (dot_S5000x1024_S5000x64_S1024x64_0_0_1_1_n_n.lhsIdx i q 1).val = (i 0).val := by
  unfold DotDims.lhsIdx
  rw [dif_neg (show ¬(1 : Fin S5000x1024.rank) ∈ dot_S5000x1024_S5000x64_S1024x64_0_0_1_1_n_n.lhsBatch by decide), dif_pos (show (1 : Fin S5000x1024.rank) ∈ dot_S5000x1024_S5000x64_S1024x64_0_0_1_1_n_n.lhsNonContracting by decide)]
  rfl
theorem rhs4_0 (i : S1024x64.Idx) (q : dot_S5000x1024_S5000x64_S1024x64_0_0_1_1_n_n.contr.Idx) :
    (dot_S5000x1024_S5000x64_S1024x64_0_0_1_1_n_n.rhsIdx i q 0).val = (q ⟨0, by decide⟩).val :=
  dot_S5000x1024_S5000x64_S1024x64_0_0_1_1_n_n.rhsIdx_val_of_single rfl i q
theorem rhs4_1 (i : S1024x64.Idx) (q : dot_S5000x1024_S5000x64_S1024x64_0_0_1_1_n_n.contr.Idx) :
    (dot_S5000x1024_S5000x64_S1024x64_0_0_1_1_n_n.rhsIdx i q 1).val = (i 1).val := by
  unfold DotDims.rhsIdx
  rw [dif_neg (show ¬(1 : Fin S5000x64.rank) ∈ dot_S5000x1024_S5000x64_S1024x64_0_0_1_1_n_n.rhsBatch by decide), dif_pos (show (1 : Fin S5000x64.rank) ∈ dot_S5000x1024_S5000x64_S1024x64_0_0_1_1_n_n.rhsNonContracting by decide)]
  rfl

/-- One tile adds to the sums, at (g, f), the sum over its rows of one-hot (r, g) · rows (r, f): the product contracts the rows. -/
theorem pool_pay4_apply (ids : Vec Ideal S5000x1 .i32) (rows : Vec Ideal S5000x64 .f32) (acc : Vec Ideal S1024x64 .f32)
    (g : Fin 1024) (f : Fin 64) :
    k6_pay4 (F := Ideal) ids rows acc (ix2 g f)
      = acc (ix2 g f) + ∑ r : Fin 5000, Spec.hot ids r g.val * rows (ix2 r f) := by
  unfold k6_pay4
  simp only [addf_apply, shapeCast_self, matmul]
  rw [Ideal.matmul_constant_zero_apply, ← Equiv.sum_comp (contrEquiv1 dot_S5000x1024_S5000x64_S1024x64_0_0_1_1_n_n 5000 rfl rfl).symm]
  refine congrArg (acc (ix2 g f) + ·) (Finset.sum_congr rfl fun k _ => ?_)
  have hk := contrEquiv1_symm_val dot_S5000x1024_S5000x64_S1024x64_0_0_1_1_n_n 5000 rfl rfl k
  have el : dot_S5000x1024_S5000x64_S1024x64_0_0_1_1_n_n.lhsIdx (ix2 g f) ((contrEquiv1 dot_S5000x1024_S5000x64_S1024x64_0_0_1_1_n_n 5000 rfl rfl).symm k) = ix2 k g := funext fun a => Fin.ext (by
    match a with
    | ⟨0, _⟩ => exact (lhs4_0 _ _).trans hk
    | ⟨1, _⟩ => exact lhs4_1 _ _)
  have er : dot_S5000x1024_S5000x64_S1024x64_0_0_1_1_n_n.rhsIdx (ix2 g f) ((contrEquiv1 dot_S5000x1024_S5000x64_S1024x64_0_0_1_1_n_n 5000 rfl rfl).symm k) = ix2 k f := funext fun a => Fin.ext (by
    match a with
    | ⟨0, _⟩ => exact (rhs4_0 _ _).trans hk
    | ⟨1, _⟩ => exact rhs4_1 _ _)
  rw [el, er, pool_pay3_apply]
  rfl

theorem lhs5_0 (i : S1024x1.Idx) (q : dot_S5000x1024_S5000x1_S1024x1_0_0_1_1_n_n.contr.Idx) :
    (dot_S5000x1024_S5000x1_S1024x1_0_0_1_1_n_n.lhsIdx i q 0).val = (q ⟨0, by decide⟩).val :=
  dot_S5000x1024_S5000x1_S1024x1_0_0_1_1_n_n.lhsIdx_val_of_single rfl i q
theorem lhs5_1 (i : S1024x1.Idx) (q : dot_S5000x1024_S5000x1_S1024x1_0_0_1_1_n_n.contr.Idx) :
    (dot_S5000x1024_S5000x1_S1024x1_0_0_1_1_n_n.lhsIdx i q 1).val = (i 0).val := by
  unfold DotDims.lhsIdx
  rw [dif_neg (show ¬(1 : Fin S5000x1024.rank) ∈ dot_S5000x1024_S5000x1_S1024x1_0_0_1_1_n_n.lhsBatch by decide), dif_pos (show (1 : Fin S5000x1024.rank) ∈ dot_S5000x1024_S5000x1_S1024x1_0_0_1_1_n_n.lhsNonContracting by decide)]
  rfl

/-- One tile adds to the counts, at (g, 0), the sum over its rows of one-hot (r, g) · 1. -/
theorem pool_pay5_apply (ids : Vec Ideal S5000x1 .i32) (cnt : Vec Ideal S1024x1 .f32) (g : Fin 1024) :
    k6_pay5 (F := Ideal) ids cnt (ix2 g (0 : Fin 1))
      = cnt (ix2 g (0 : Fin 1)) + ∑ r : Fin 5000, Spec.hot ids r g.val * 1 := by
  unfold k6_pay5
  simp only [addf_apply, shapeCast_self, matmul]
  rw [Ideal.matmul_constant_zero_apply, ← Equiv.sum_comp (contrEquiv1 dot_S5000x1024_S5000x1_S1024x1_0_0_1_1_n_n 5000 rfl rfl).symm]
  refine congrArg (cnt (ix2 g (0 : Fin 1)) + ·) (Finset.sum_congr rfl fun k _ => ?_)
  have hk := contrEquiv1_symm_val dot_S5000x1024_S5000x1_S1024x1_0_0_1_1_n_n 5000 rfl rfl k
  have el : dot_S5000x1024_S5000x1_S1024x1_0_0_1_1_n_n.lhsIdx (ix2 g (0 : Fin 1)) ((contrEquiv1 dot_S5000x1024_S5000x1_S1024x1_0_0_1_1_n_n 5000 rfl rfl).symm k) = ix2 k g := funext fun a => Fin.ext (by
    match a with
    | ⟨0, _⟩ => exact (lhs5_0 _ _).trans hk
    | ⟨1, _⟩ => exact lhs5_1 _ _)
  rw [el, pool_pay3_apply]
  show _ * Ideal.ofBits .bf16 0x3F80#16 = _
  rw [show Ideal.ofBits .bf16 0x3F80#16 = 1 from IdealRules.sign_bit.ideal_onePat .bf16]

/-- The quotient at (g, f): the sum there over max (count of g, 1). -/
theorem pool_pay6_apply (acc : Vec Ideal S1024x64 .f32) (cnt : Vec Ideal S1024x1 .f32) (g : Fin 1024) (f : Fin 64) :
    k6_pay6 (F := Ideal) acc cnt (ix2 g f)
      = Ideal.div (acc (ix2 g f)) (max (cnt (ix2 g (0 : Fin 1))) Spec.oneF) := by
  unfold k6_pay6
  simp only [divf_apply, shapeCast_self]
  refine congrArg (Ideal.div (acc (ix2 g f))) ?_
  exact broadcastTo_apply _ broadcasts_S1024x1_S1024x64 (ix2 g f) (ix2 g (0 : Fin 1)) (fun a => by
    match a with
    | ⟨0, _⟩ => rfl
    | ⟨1, _⟩ => rfl)

/-- The sums after tile n, starting from zeros. -/
def accS (hblk : ℕ → Vec Ideal S5000x64 .f32) (iblk : ℕ → Vec Ideal S5000x1 .i32) : ℕ → Vec Ideal S1024x64 .f32
  | 0 => k6_pay4 (F := Ideal) (iblk 0) (hblk 0) (k6_pay1 (F := Ideal))
  | n + 1 => k6_pay4 (F := Ideal) (iblk (n + 1)) (hblk (n + 1)) (accS hblk iblk n)

/-- The counts after tile n, starting from zeros. -/
def cntS (iblk : ℕ → Vec Ideal S5000x1 .i32) : ℕ → Vec Ideal S1024x1 .f32
  | 0 => k6_pay5 (F := Ideal) (iblk 0) (k6_pay2 (F := Ideal))
  | n + 1 => k6_pay5 (F := Ideal) (iblk (n + 1)) (cntS iblk n)

theorem pool_pay1_apply (j : S1024x64.Idx) : k6_pay1 (F := Ideal) j = 0 := Ideal.ofBits_zero_f32
theorem pool_pay2_apply (j : S1024x1.Idx) : k6_pay2 (F := Ideal) j = 0 := by
  unfold k6_pay2
  simp only [shapeCast_self]
  exact Ideal.ofBits_zero_f32

/-- After tile n the sums are the sum over tiles 0 … n of each tile's partial sums: by induction on n. -/
theorem accS_apply (hblk : ℕ → Vec Ideal S5000x64 .f32) (iblk : ℕ → Vec Ideal S5000x1 .i32) (n : ℕ) (g : Fin 1024) (f : Fin 64) :
    accS hblk iblk n (ix2 g f)
      = ∑ m ∈ Finset.range (n + 1), ∑ r : Fin 5000, Spec.hot (iblk m) r g.val * hblk m (ix2 r f) := by
  induction n with
  | zero =>
    show k6_pay4 (F := Ideal) (iblk 0) (hblk 0) (k6_pay1 (F := Ideal)) (ix2 g f) = _
    rw [pool_pay4_apply, pool_pay1_apply, zero_add, Finset.sum_range_one]
  | succ n ih =>
    show k6_pay4 (F := Ideal) (iblk (n + 1)) (hblk (n + 1)) (accS hblk iblk n) (ix2 g f) = _
    rw [pool_pay4_apply, ih, Finset.sum_range_succ _ (n + 1)]

/-- The counts likewise. -/
theorem cntS_apply (iblk : ℕ → Vec Ideal S5000x1 .i32) (n : ℕ) (g : Fin 1024) :
    cntS iblk n (ix2 g (0 : Fin 1))
      = ∑ m ∈ Finset.range (n + 1), ∑ r : Fin 5000, Spec.hot (iblk m) r g.val * 1 := by
  induction n with
  | zero =>
    show k6_pay5 (F := Ideal) (iblk 0) (k6_pay2 (F := Ideal)) (ix2 g (0 : Fin 1)) = _
    rw [pool_pay5_apply, pool_pay2_apply, zero_add, Finset.sum_range_one]
  | succ n ih =>
    show k6_pay5 (F := Ideal) (iblk (n + 1)) (cntS iblk n) (ix2 g (0 : Fin 1)) = _
    rw [pool_pay5_apply, ih, Finset.sum_range_succ _ (n + 1)]

/-- A sum over N · B rows is the sum over the N tiles of the sum over each tile's B rows, row B · m + r. -/
theorem sum_tiles {M : Type*} [AddCommMonoid M] (N B : ℕ) (F : Fin (N * B) → M) :
    ∑ t, F t = ∑ m ∈ Finset.range N, ∑ r : Fin B,
      (if hm : m < N then F ⟨B * m + r.val, by
        calc B * m + r.val < B * m + B := by have := r.isLt; omega
          _ = B * (m + 1) := by ring
          _ ≤ B * N := Nat.mul_le_mul_left _ hm
          _ = N * B := Nat.mul_comm _ _⟩ else 0) := by
  rw [← Equiv.sum_comp finProdFinEquiv, Fintype.sum_prod_type, ← Fin.sum_univ_eq_sum_range (fun m => ∑ r : Fin B,
      (if hm : m < N then F ⟨B * m + r.val, _⟩ else 0)) N]
  refine Finset.sum_congr rfl fun a _ => Finset.sum_congr rfl fun b _ => ?_
  rw [dif_pos a.isLt]
  exact congrArg F (Fin.ext (by simp [finProdFinEquiv, Nat.add_comm]))

/-- Twenty tiles of 5000 rows are all 100000 rows, so the quotient of the sums by max (counts, 1) after the last tile is the mean over each graph's rows. -/
theorem pool_math (h : (Spec.M 100000 64).Idx → EReal) (ids : (Spec.M 100000 1).Idx → BitVec 32)
    (hblk : ℕ → Vec Ideal S5000x64 .f32) (iblk : ℕ → Vec Ideal S5000x1 .i32)
    (hh : ∀ (n : ℕ) (hn : n < 20) (r : Fin 5000) (f : Fin 64),
      hblk n (ix2 r f) = h (ix2 (⟨5000 * n + r.val, by have := r.isLt; omega⟩ : Fin 100000) f))
    (hi : ∀ (n : ℕ) (hn : n < 20) (r : Fin 5000),
      iblk n (ix2 r (0 : Fin 1)) = ids (ix2 (⟨5000 * n + r.val, by have := r.isLt; omega⟩ : Fin 100000) (0 : Fin 1))) :
    k6_pay6 (F := Ideal) (accS hblk iblk 19) (cntS iblk 19) = Spec.pool (G := 1024) (H := 64) h ids := by
  funext j
  obtain ⟨g, f, rfl⟩ : ∃ (g : Fin 1024) (f : Fin 64), j = ix2 g f := ⟨j 0, j 1, eq_ix2 j⟩
  have hhot : ∀ (m : ℕ) (hm : m < 20) (r : Fin 5000),
      Spec.hot (iblk m) r g.val = Spec.hot ids (⟨5000 * m + r.val, by have := r.isLt; omega⟩ : Fin 100000) g.val := by
    intro m hm r
    unfold Spec.hot
    rw [hi m hm r]
  have e1 : (∑ m ∈ Finset.range (19 + 1), ∑ r : Fin 5000, Spec.hot (iblk m) r g.val * hblk m (ix2 r f))
      = ∑ t : Fin 100000, Spec.hot ids t g.val * h (ix2 t f) := by
    rw [sum_tiles 20 5000 (fun t : Fin 100000 => Spec.hot ids t g.val * h (ix2 t f))]
    refine Finset.sum_congr rfl fun m hm => Finset.sum_congr rfl fun r _ => ?_
    have hm' : m < 20 := Finset.mem_range.mp hm
    rw [dif_pos hm', hh m hm' r f, hhot m hm' r]
  have e2 : (∑ m ∈ Finset.range (19 + 1), ∑ r : Fin 5000, Spec.hot (iblk m) r g.val * 1)
      = ∑ t : Fin 100000, Spec.hot ids t g.val * 1 := by
    rw [sum_tiles 20 5000 (fun t : Fin 100000 => Spec.hot ids t g.val * 1)]
    refine Finset.sum_congr rfl fun m hm => Finset.sum_congr rfl fun r _ => ?_
    have hm' : m < 20 := Finset.mem_range.mp hm
    rw [dif_pos hm', hhot m hm' r]
  rw [pool_pay6_apply, accS_apply, cntS_apply, e1, e2]
  rfl

end Cert.KernelIdeal.Val

end
-- ==== Proof.Val.Pool.lean ====
import proofs.«415254_j79637283602865_2_alg».proof.Proof.FrI.Rg6
import proofs.«415254_j79637283602865_2_alg».proof.Proof.Val.PoolMath
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- Over the grid the rows' and the ids' block index is t and the output's is 0. -/
theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = t.val ∧ win6_1.index t (1 : Fin 2) = 0 :=
  (by decide +kernel : ∀ t : Fin grid6.N, win6_1.index t (0 : Fin 2) = t.val ∧ win6_1.index t (1 : Fin 2) = 0)
theorem idx6_2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)

/-- Row r of tile t is row 5000 · t + r of the node rows. -/
theorem rows_read (c : Dev nD) (t : Fin cfg6.N) (r : Fin 5000) (f : Fin 64) :
    (iblk6 V c 0 t : Vec Ideal S5000x64 .f32) (ix2 r f)
      = (V c main_v76 : S100000x64.Idx → EReal) (ix2 (⟨5000 * t.val + r.val, by
          have := t.isLt; have : cfg6.N = 20 := N_6; have := r.isLt; omega⟩ : Fin 100000) f) := by
  unfold iblk6
  rw [View.read_apply]
  show V c main_v76 _ = V c main_v76 _
  congr 1
  funext a
  apply Fin.ext
  match a with
  | ⟨0, _⟩ => show win6_0.index t 0 * 5000 + 1 * r.val = 5000 * t.val + r.val; rw [(idx6_0 t).1]; omega
  | ⟨1, _⟩ => show win6_0.index t 1 * 64 + 1 * f.val = f.val; rw [(idx6_0 t).2]; omega

/-- Id r of tile t is id 5000 · t + r. -/
theorem ids_read (c : Dev nD) (t : Fin cfg6.N) (r : Fin 5000) :
    (iblk6 V c 1 t : Vec Ideal S5000x1 .i32) (ix2 r (0 : Fin 1))
      = (V c main_v77 : S100000x1.Idx → BitVec 32) (ix2 (⟨5000 * t.val + r.val, by
          have := t.isLt; have : cfg6.N = 20 := N_6; have := r.isLt; omega⟩ : Fin 100000) (0 : Fin 1)) := by
  unfold iblk6
  rw [View.read_apply]
  show V c main_v77 _ = V c main_v77 _
  congr 1
  funext a
  apply Fin.ext
  match a with
  | ⟨0, _⟩ => show win6_1.index t 0 * 5000 + 1 * r.val = 5000 * t.val + r.val; rw [(idx6_1 t).1]; omega
  | ⟨1, _⟩ => show win6_1.index t 1 * 1 + 1 * 0 = 0; rw [(idx6_1 t).2]

/-- Tile n's rows, and its ids (past the grid: zeros, never read). -/
def hblk (c : Dev nD) (n : ℕ) : Vec Ideal S5000x64 .f32 := if h : n < cfg6.N then iblk6 V c 0 ⟨n, h⟩ else fun _ => 0
def iblk (c : Dev nD) (n : ℕ) : Vec Ideal S5000x1 .i32 := if h : n < cfg6.N then iblk6 V c 1 ⟨n, h⟩ else fun _ => 0

theorem hblk_of_lt (c : Dev nD) (n : ℕ) (h : n < cfg6.N) : hblk V c n = iblk6 V c 0 ⟨n, h⟩ := dif_pos h
theorem iblk_of_lt (c : Dev nD) (n : ℕ) (h : n < cfg6.N) : iblk V c n = iblk6 V c 1 ⟨n, h⟩ := dif_pos h

/-- Before the last point the output block and the counts hold the running sums and counts: by induction on the point. -/
theorem outsAt_eq (c : Dev nD) : ∀ (n : ℕ) (h : n < cfg6.N), n < 19 →
    outsAt6 V c n h = (accS (hblk V c) (iblk V c) n, cntS (iblk V c) n)
  | 0, h, _ => by
    rw [accS, cntS, hblk_of_lt V c 0 h, iblk_of_lt V c 0 h]; rfl
  | n + 1, h, hlt => by
    rw [outsAt6, outsAt_eq c n (Nat.lt_of_succ_lt h) (by omega), ← hblk_of_lt V c (n + 1) h, ← iblk_of_lt V c (n + 1) h]
    unfold res6; dsimp only; rw [if_neg (by omega), if_neg (by omega), if_neg (by omega)]; rfl

/-- The last point also divides, and twenty tiles are all the rows: the output block ends at the mean over each graph's rows. -/
theorem outsAt_last_pool (c : Dev nD) (h : 19 < cfg6.N) :
    (outsAt6 V c 19 h).1 = Spec.pool (G := 1024) (H := 64) (V c main_v76 : S100000x64.Idx → EReal) (V c main_v77 : S100000x1.Idx → BitVec 32) := by
  have hN : cfg6.N = 20 := N_6
  refine Eq.trans ?_ (pool_math (V c main_v76 : S100000x64.Idx → EReal) (V c main_v77 : S100000x1.Idx → BitVec 32) (hblk V c) (iblk V c) (fun n hn r f => ?_) (fun n hn r => ?_))
  · rw [outsAt6, outsAt_eq V c 18 (Nat.lt_of_succ_lt h) (by decide), ← hblk_of_lt V c 19 h, ← iblk_of_lt V c 19 h]; rfl
  · rw [hblk_of_lt V c n (by omega)]
    exact rows_read V c ⟨n, by omega⟩ r f
  · rw [iblk_of_lt V c n (by omega)]
    exact ids_read V c ⟨n, by omega⟩ r

/-- What the last point leaves is the mean, and the output's block is the whole array. -/
theorem flushed_eq (c : Dev nD) (t : Fin cfg6.N) (hf : (cfg6.win 2).flush t = true) :
    (dat6 V c).flushed 2 t = ((cfg6.win 2).blk t).view.read (Elt Ideal)
      (Spec.pool (G := 1024) (H := 64) (V c main_v76 : S100000x64.Idx → EReal) (V c main_v77 : S100000x1.Idx → BitVec 32)) := by
  have hN : cfg6.N = 20 := N_6
  have h19 : t.val = 19 := by have := (flush6_2 t).mp hf; have := t.isLt; omega
  obtain ⟨n, hn⟩ := t
  obtain rfl : n = 19 := h19
  show (cfg6.win 2).cut (grid6.coords ⟨19, hn⟩) ((dat6 V c).after 2 ⟨19, hn⟩) = _
  rw [after6_2]
  dsimp only
  rw [outsAt_last_pool V c hn]
  have hz' : (fun a => win6_2.index ⟨19, hn⟩ a * main_v78.ty.shape.size a) = fun _ => 0 := funext fun a => by
    match a with
    | ⟨0, _⟩ => show win6_2.index ⟨19, hn⟩ 0 * 1024 = 0; rw [(idx6_2 ⟨19, hn⟩).1]
    | ⟨1, _⟩ => show win6_2.index ⟨19, hn⟩ 1 * 64 = 0; rw [(idx6_2 ⟨19, hn⟩).2]
  exact (Memref.read_access_unit_zero (Elt Ideal) main_v78 hz' (fun a => by rw [congrFun hz' a]; simp) _).symm

abbrev tLast : Fin cfg6.N := ⟨19, lt_of_lt_of_eq (by decide : (19 : ℕ) < 20) (show cfg6.N = 20 from N_6).symm⟩

/-- The output array ends holding the mean over each graph's rows. -/
theorem final6 (c : Dev nD) :
    (dat6 V c).arrAt 2 cfg6.N = Spec.pool (G := 1024) (H := 64) (V c main_v76 : S100000x64.Idx → EReal) (V c main_v77 : S100000x1.Idx → BitVec 32) :=
  (dat6 V c).arrAt_eq_of_cover 2 _ (flushed_eq V c) fun i =>
    ⟨tLast, (flush6_2 tLast).mpr rfl, by
      show i ∈ ((View.whole main_v78).slice (win6_2.rect tLast)).set
      rw [View.set_slice_whole, Rect.mem_set_unit]
      intro a
      have h0 : (i 0 : Nat) < 1024 := (i 0).isLt
      have h1 : (i 1 : Nat) < 64 := (i 1).isLt
      match a with
      | ⟨0, _⟩ => show win6_2.index tLast 0 * win6_2.size 0 ≤ (i 0 : Nat) ∧ (i 0 : Nat) < win6_2.index tLast 0 * win6_2.size 0 + win6_2.xsize (grid6.coords tLast) 0
                  rw [(idx6_2 tLast).1, show win6_2.xsize (grid6.coords tLast) 0 = 1024 from rfl]; omega
      | ⟨1, _⟩ => show win6_2.index tLast 1 * win6_2.size 1 ≤ (i 1 : Nat) ∧ (i 1 : Nat) < win6_2.index tLast 1 * win6_2.size 1 + win6_2.xsize (grid6.coords tLast) 1
                  rw [(idx6_2 tLast).2, show win6_2.xsize (grid6.coords tLast) 1 = 64 from rfl]; omega⟩

end Cert.KernelIdeal.Val

end
-- ==== Proof.Bridge.Shared.lean ====
/- The network both programs compute, named once. The host operations that make the degrees, the edge weights and the
   index columns are the same in both programs: they are carried as the reference's own stage functions and never opened. -/
import proofs.«415254_j79637283602865_2_alg».proof.Proof.Gen.ReferenceIdeal.Read
import proofs.«415254_j79637283602865_2_alg».proof.Proof.Spec.Fns

noncomputable section

namespace Cert.Bridge

open Idealize.ShloMosaic Idealize.ShloMosaic.ValueIdx Cert.ReferenceIdeal Cert.ReferenceIdeal.Read

abbrev EI : Type := (⟨S2x1600000, .i32⟩ : BufTy).Contents (Elt Ideal)
abbrev Ids : Type := (⟨S100000, .i32⟩ : BufTy).Contents (Elt Ideal)
abbrev Hm : Type := FVec Ideal S100000x64 .f32

/-- The degree vector the first host operations make from the edge list: a nonzero real at every node. -/
def deg (ei : EI) : S100000.Idx → EReal := val_main_v9 (F := Ideal) ei

/-- The neighbour sum: the features gathered at the edges' sources, weighted, added up at the destinations. -/
def agg (ht : Hm) (ei : EI) : Hm :=
  Host.scatterAdd (F := Ideal) (φ := .f32) scatter_S100000x64_S1600000x1_S1600000x64_1_0_0_1 (val_main_v37 (F := Ideal)) (val_main_v38 (F := Ideal) ei)
    (mulf (F := Ideal) (Host.gather gather_S100000x64_S1600000x1_S1600000x64_1_0_n_n_0_1_164 (ht : FVec Ideal S100000x64 .f32) (val_main_v32 (F := Ideal) ei))
      (val_main_v35 (F := Ideal) ei))

def invCol (ei : EI) : (Spec.M 100000 1).Idx → EReal :=
  fun i => Ideal.div Spec.oneF (deg ei (ix1 (i 0 : Fin 100000)))

def rowOf {n : Nat} (b : (⟨1, ![n]⟩ : Shape).Idx → EReal) : (Spec.M 1 n).Idx → EReal := fun i => b (ix1 (i 1 : Fin n))

def idCol (ids : Ids) : (Spec.M 100000 1).Idx → BitVec 32 := fun i => ids (ix1 (i 0 : Fin 100000))

/-- One layer: max (agg (h · W) + (h · W) · (1 / deg) + b, 0). -/
def layer {K : Nat} (h : (Spec.M 100000 K).Idx → EReal) (W : (Spec.M K 64).Idx → EReal) (b : S64.Idx → EReal) (ei : EI) : Hm :=
  Spec.comb (agg (Spec.mm h W) ei) (Spec.mm h W) (invCol ei) (rowOf b)

/-- The whole network: three layers, the mean per graph, a last product plus bias. -/
def net (x : S100000x128.Idx → EReal) (ei : EI) (ids : Ids) (W1 : S128x64.Idx → EReal) (b1 : S64.Idx → EReal)
    (W2 : S64x64.Idx → EReal) (b2 : S64.Idx → EReal) (W3 : S64x64.Idx → EReal) (b3 : S64.Idx → EReal)
    (Wfc : S64x2.Idx → EReal) (bfc : S2.Idx → EReal) : S1024x2.Idx → EReal :=
  Spec.mmb (Spec.pool (G := 1024) (layer (layer (layer x W1 b1 ei) W2 b2 ei) W3 b3 ei) (idCol ids)) Wfc (rowOf bfc)

end Cert.Bridge

end
-- ==== Proof.Bridge.Layout.lean ====
import Idealize.ShloMosaic.Lib.ValueLayout

namespace Cert.Bridge

open Idealize.ShloMosaic Idealize.ShloMosaic.ValueIdx

variable {α : Type}

/-- A vector cast to a column reads, at (i, u), the vector's entry i: both indices name one row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge
-- ==== Proof.Val.Chain.lean ====
/- The kernel program's result, followed through its fourteen items: the first host stretch makes the edge vectors, the
   degrees and the column 1 / deg; each layer is a product region, a host stretch (the neighbour sum and the bias row) and
   an epilogue region; then the pool region and the last product. -/
import proofs.«415254_j79637283602865_2_alg».proof.Proof.FrI.Run
import proofs.«415254_j79637283602865_2_alg».proof.Proof.Val.Mm
import proofs.«415254_j79637283602865_2_alg».proof.Proof.Val.Cb
import proofs.«415254_j79637283602865_2_alg».proof.Proof.Val.Mmb
import proofs.«415254_j79637283602865_2_alg».proof.Proof.Val.Pool
import proofs.«415254_j79637283602865_2_alg».proof.Proof.Bridge.Shared
import proofs.«415254_j79637283602865_2_alg».proof.Proof.Bridge.Layout
import Idealize.ShloMosaic.Lib.StableHlo.Run
import Idealize.ShloMosaic.Lib.ValueLayout

set_option maxRecDepth 16384

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen Cert.KernelIdeal.Fr

variable (m : (ℓ : Loc nD τ sig) → Buf (Elt Ideal) ℓ) (ρ : Dev nD → PrngReg) (c : Dev nD)

abbrev aX : Buf (Elt Ideal) ((c : Thread nD τ).loc main_arg0) := m ((c : Thread nD τ).loc main_arg0)
abbrev aE : Buf (Elt Ideal) ((c : Thread nD τ).loc main_arg1) := m ((c : Thread nD τ).loc main_arg1)
abbrev aI : Buf (Elt Ideal) ((c : Thread nD τ).loc main_arg2) := m ((c : Thread nD τ).loc main_arg2)

def k0_2 := (k1 m ρ c).trans (k2 m ρ c)
def k0_4 := (k0_2 m ρ c).trans ((k3 m ρ c).trans (k4 m ρ c))
def k0_5 := (k0_4 m ρ c).trans (k5 m ρ c)
def k0_7 := (k0_5 m ρ c).trans ((k6 m ρ c).trans (k7 m ρ c))
def k0_8 := (k0_7 m ρ c).trans (k8 m ρ c)
def k0_10 := (k0_8 m ρ c).trans ((k9 m ρ c).trans (k10 m ρ c))
def k0_12 := (k0_10 m ρ c).trans ((k11 m ρ c).trans (k12 m ρ c))
def k0_13 := (k0_12 m ρ c).trans (k13 m ρ c)
def k1_5 := (k2 m ρ c).trans ((k3 m ρ c).trans ((k4 m ρ c).trans (k5 m ρ c)))
def k1_8 := (k1_5 m ρ c).trans ((k6 m ρ c).trans ((k7 m ρ c).trans (k8 m ρ c)))

open Cert.ReferenceIdeal.Read in
theorem src_at1 : W1 m ρ c (Proc.devRef .tc main_v1) = val_main_v1 (F := Ideal) (aE m c) := by
  show StableHlo.after hostOps0 (W0 m ρ c) (Proc.devRef .tc main_v1) = _
  after_results; rfl

open Cert.ReferenceIdeal.Read in
theorem dst_at1 : W1 m ρ c (Proc.devRef .tc main_v3) = val_main_v3 (F := Ideal) (aE m c) := by
  show StableHlo.after hostOps0 (W0 m ρ c) (Proc.devRef .tc main_v3) = _
  after_results; rfl

open Cert.ReferenceIdeal.Read in
theorem deg_at1 : W1 m ρ c (Proc.devRef .tc main_v9) = val_main_v9 (F := Ideal) (aE m c) := by
  show StableHlo.after hostOps0 (W0 m ρ c) (Proc.devRef .tc main_v9) = _
  after_results; rfl

open Cert.ReferenceIdeal.Read in
set_option maxHeartbeats 4000000 in
theorem wgt_at1 : W1 m ρ c (Proc.devRef .tc main_v25) = val_main_v25 (F := Ideal) (aE m c) := by
  show StableHlo.after hostOps0 (W0 m ρ c) (Proc.devRef .tc main_v25) = _
  after_results_simp; rfl

theorem inv_col_eq (ei : Bridge.EI) :
    shapeCast S100000x1 (Host.divf (F := Ideal) (broadcastInDim S100000 ![] bcast_S_S100000 (constant (F := Ideal) S_ .f32 0x3F800000#32))
      (Cert.ReferenceIdeal.Read.val_main_v9 (F := Ideal) ei)) shapeCasts_S100000_S100000x1 = Bridge.invCol ei := by
  funext i
  obtain ⟨p, u, rfl⟩ : ∃ (p : Fin 100000) (u : Fin 1), i = ix2 p u := ⟨i 0, i 1, eq_ix2 i⟩
  have hA : ∀ d : (⟨S100000, .f32⟩ : BufTy).Contents (Elt Ideal),
      Host.divf (F := Ideal) (broadcastInDim S100000 ![] bcast_S_S100000 (constant (F := Ideal) S_ .f32 0x3F800000#32)) d (ix1 p)
        = Ideal.div (Ideal.ofBits .f32 0x3F800000#32) (d (ix1 p)) := fun _ => rfl
  have hB : Bridge.invCol ei (ix2 p u) = Ideal.div Spec.oneF (Cert.ReferenceIdeal.Read.val_main_v9 (F := Ideal) ei (ix1 p)) := rfl
  exact ((Bridge.shapeCast_a_a1_apply (a := 100000) _ shapeCasts_S100000_S100000x1 p u).trans (hA _)).trans hB.symm

set_option maxHeartbeats 4000000 in

theorem inv_at1 : W1 m ρ c (Proc.devRef .tc main_v28) = Bridge.invCol (aE m c) := by
  have h : W1 m ρ c (Proc.devRef .tc main_v28) = shapeCast S100000x1
      (Host.divf (F := Ideal) (broadcastInDim S100000 ![] bcast_S_S100000 (constant (F := Ideal) S_ .f32 0x3F800000#32))
        (W1 m ρ c (Proc.devRef .tc main_v9))) shapeCasts_S100000_S100000x1 := by
    show StableHlo.after hostOps0 (W0 m ρ c) (Proc.devRef .tc main_v28) = _
    after_results_simp; rfl
  rw [h, deg_at1]
  exact inv_col_eq (aE m c)

open Cert.ReferenceIdeal.Read in

theorem agg_of (ht : Bridge.Hm) (s d : (⟨Cert.ReferenceIdeal.S1600000, .i32⟩ : BufTy).Contents (Elt Ideal))
    (w : (⟨Cert.ReferenceIdeal.S1600000, .f32⟩ : BufTy).Contents (Elt Ideal))
    (hs : s = val_main_v1 (F := Ideal) (aE m c)) (hd : d = val_main_v3 (F := Ideal) (aE m c)) (hw : w = val_main_v25 (F := Ideal) (aE m c)) :
    Host.scatterAdd (F := Ideal) (φ := .f32) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 d)
        (mulf (F := Ideal) (Host.gather gather_S100000x64_S1600000x1_S1600000x64_1_0_n_n_0_1_164 ht
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s)))
          (broadcastInDim S1600000x64 ![0, 1] bcast_S1600000x1_S1600000x64_0_1 (broadcastInDim S1600000x1 ![0] bcast_S1600000_S1600000x1_0 w)))
      = Bridge.agg ht (aE m c) := by
  subst hs hd hw; rfl

theorem row_of (b : (⟨S64, .f32⟩ : BufTy).Contents (Elt Ideal)) :
    (shapeCast S1x64 b shapeCasts_S64_S1x64 : S1x64.Idx → EReal) = Bridge.rowOf b := by
  funext i
  obtain ⟨u, q, rfl⟩ : ∃ (u : Fin 1) (q : Fin 64), i = ix2 u q := ⟨i 0, i 1, eq_ix2 i⟩
  rw [shapeCast_a_1a_apply]; rfl

theorem ht1 : W2 m ρ c (Proc.devRef .tc main_v29) = Spec.mm (m ((c : Thread nD τ).loc main_arg0)) (m ((c : Thread nD τ).loc main_arg3)) := by
  have h := (Wreg_arr launch0 (W1 m ρ) _ c _).trans (final0 (V1 m ρ) c)
  rw [show V1 m ρ c main_arg3 = m ((c : Thread nD τ).loc main_arg3) from k1 m ρ c main_arg3 (by decide)] at h
  rw [show V1 m ρ c main_arg0 = m ((c : Thread nD τ).loc main_arg0) from k1 m ρ c main_arg0 (by decide)] at h
  exact h

set_option maxHeartbeats 4000000 in

theorem agg1 : W3 m ρ c (Proc.devRef .tc main_v42) = Bridge.agg (W2 m ρ c (Proc.devRef .tc main_v29)) (aE m c) := by
  show StableHlo.after hostOps1 (W2 m ρ c) (Proc.devRef .tc main_v42) = _
  after_results_simp
  exact agg_of m c _ _ _ _
    ((k2 m ρ c main_v1 (by decide)).trans (src_at1 m ρ c))
    ((k2 m ρ c main_v3 (by decide)).trans (dst_at1 m ρ c))
    ((k2 m ρ c main_v25 (by decide)).trans (wgt_at1 m ρ c))

theorem brow1 : W3 m ρ c (Proc.devRef .tc main_v43) = Bridge.rowOf (m ((c : Thread nD τ).loc main_arg4)) := by
  have h : W3 m ρ c (Proc.devRef .tc main_v43) = shapeCast S1x64 (W2 m ρ c (Proc.devRef .tc main_arg4)) shapeCasts_S64_S1x64 := by
    show StableHlo.after hostOps1 (W2 m ρ c) (Proc.devRef .tc main_v43) = _
    after_results; rfl
  rw [h, k0_2 m ρ c main_arg4 (by decide)]; exact row_of _

theorem inv1 : W3 m ρ c (Proc.devRef .tc main_v28) = Bridge.invCol (aE m c) :=
  (((k2 m ρ c).trans (k3 m ρ c)) main_v28 (by decide)).trans (inv_at1 m ρ c)

theorem out1 : W4 m ρ c (Proc.devRef .tc main_v44) = Bridge.layer (m ((c : Thread nD τ).loc main_arg0)) (m ((c : Thread nD τ).loc main_arg3)) (m ((c : Thread nD τ).loc main_arg4)) (aE m c) := by
  have h := (Wreg_arr launch1 (W3 m ρ) _ c _).trans (final1 (V3 m ρ) c)
  rw [show V3 m ρ c main_v42 = W3 m ρ c (Proc.devRef .tc main_v42) from rfl,
    show V3 m ρ c main_v29 = W2 m ρ c (Proc.devRef .tc main_v29) from k3 m ρ c main_v29 (by decide),
    show V3 m ρ c main_v28 = W3 m ρ c (Proc.devRef .tc main_v28) from rfl,
    show V3 m ρ c main_v43 = W3 m ρ c (Proc.devRef .tc main_v43) from rfl,
    agg1, inv1, brow1, ht1] at h
  exact h

theorem ht2 : W5 m ρ c (Proc.devRef .tc main_v45) = Spec.mm (W4 m ρ c (Proc.devRef .tc main_v44)) (m ((c : Thread nD τ).loc main_arg5)) := by
  have h := (Wreg_arr launch2 (W4 m ρ) _ c _).trans (final2 (V4 m ρ) c)
  rw [show V4 m ρ c main_arg5 = m ((c : Thread nD τ).loc main_arg5) from k0_4 m ρ c main_arg5 (by decide)] at h

  exact h

set_option maxHeartbeats 4000000 in

theorem agg2 : W6 m ρ c (Proc.devRef .tc main_v58) = Bridge.agg (W5 m ρ c (Proc.devRef .tc main_v45)) (aE m c) := by
  show StableHlo.after hostOps3 (W5 m ρ c) (Proc.devRef .tc main_v58) = _
  after_results_simp
  exact agg_of m c _ _ _ _
    ((k1_5 m ρ c main_v1 (by decide)).trans (src_at1 m ρ c))
    ((k1_5 m ρ c main_v3 (by decide)).trans (dst_at1 m ρ c))
    ((k1_5 m ρ c main_v25 (by decide)).trans (wgt_at1 m ρ c))

theorem brow2 : W6 m ρ c (Proc.devRef .tc main_v59) = Bridge.rowOf (m ((c : Thread nD τ).loc main_arg6)) := by
  have h : W6 m ρ c (Proc.devRef .tc main_v59) = shapeCast S1x64 (W5 m ρ c (Proc.devRef .tc main_arg6)) shapeCasts_S64_S1x64 := by
    show StableHlo.after hostOps3 (W5 m ρ c) (Proc.devRef .tc main_v59) = _
    after_results; rfl
  rw [h, k0_5 m ρ c main_arg6 (by decide)]; exact row_of _

theorem inv2 : W6 m ρ c (Proc.devRef .tc main_v28) = Bridge.invCol (aE m c) :=
  (((k4 m ρ c).trans ((k5 m ρ c).trans (k6 m ρ c))) main_v28 (by decide)).trans (inv1 m ρ c)

theorem out2 : W7 m ρ c (Proc.devRef .tc main_v60) = Bridge.layer (W4 m ρ c (Proc.devRef .tc main_v44)) (m ((c : Thread nD τ).loc main_arg5)) (m ((c : Thread nD τ).loc main_arg6)) (aE m c) := by
  have h := (Wreg_arr launch3 (W6 m ρ) _ c _).trans (final3 (V6 m ρ) c)
  rw [show V6 m ρ c main_v58 = W6 m ρ c (Proc.devRef .tc main_v58) from rfl,
    show V6 m ρ c main_v45 = W5 m ρ c (Proc.devRef .tc main_v45) from k6 m ρ c main_v45 (by decide),
    show V6 m ρ c main_v28 = W6 m ρ c (Proc.devRef .tc main_v28) from rfl,
    show V6 m ρ c main_v59 = W6 m ρ c (Proc.devRef .tc main_v59) from rfl,
    agg2, inv2, brow2, ht2] at h
  exact h

theorem ht3 : W8 m ρ c (Proc.devRef .tc main_v61) = Spec.mm (W7 m ρ c (Proc.devRef .tc main_v60)) (m ((c : Thread nD τ).loc main_arg7)) := by
  have h := (Wreg_arr launch4 (W7 m ρ) _ c _).trans (final4 (V7 m ρ) c)
  rw [show V7 m ρ c main_arg7 = m ((c : Thread nD τ).loc main_arg7) from k0_7 m ρ c main_arg7 (by decide)] at h

  exact h

set_option maxHeartbeats 4000000 in

theorem agg3 : W9 m ρ c (Proc.devRef .tc main_v74) = Bridge.agg (W8 m ρ c (Proc.devRef .tc main_v61)) (aE m c) := by
  show StableHlo.after hostOps5 (W8 m ρ c) (Proc.devRef .tc main_v74) = _
  after_results_simp
  exact agg_of m c _ _ _ _
    ((k1_8 m ρ c main_v1 (by decide)).trans (src_at1 m ρ c))
    ((k1_8 m ρ c main_v3 (by decide)).trans (dst_at1 m ρ c))
    ((k1_8 m ρ c main_v25 (by decide)).trans (wgt_at1 m ρ c))

theorem brow3 : W9 m ρ c (Proc.devRef .tc main_v75) = Bridge.rowOf (m ((c : Thread nD τ).loc main_arg8)) := by
  have h : W9 m ρ c (Proc.devRef .tc main_v75) = shapeCast S1x64 (W8 m ρ c (Proc.devRef .tc main_arg8)) shapeCasts_S64_S1x64 := by
    show StableHlo.after hostOps5 (W8 m ρ c) (Proc.devRef .tc main_v75) = _
    after_results; rfl
  rw [h, k0_8 m ρ c main_arg8 (by decide)]; exact row_of _

theorem inv3 : W9 m ρ c (Proc.devRef .tc main_v28) = Bridge.invCol (aE m c) :=
  (((k7 m ρ c).trans ((k8 m ρ c).trans (k9 m ρ c))) main_v28 (by decide)).trans (inv2 m ρ c)

theorem out3 : W10 m ρ c (Proc.devRef .tc main_v76) = Bridge.layer (W7 m ρ c (Proc.devRef .tc main_v60)) (m ((c : Thread nD τ).loc main_arg7)) (m ((c : Thread nD τ).loc main_arg8)) (aE m c) := by
  have h := (Wreg_arr launch5 (W9 m ρ) _ c _).trans (final5 (V9 m ρ) c)
  rw [show V9 m ρ c main_v74 = W9 m ρ c (Proc.devRef .tc main_v74) from rfl,
    show V9 m ρ c main_v61 = W8 m ρ c (Proc.devRef .tc main_v61) from k9 m ρ c main_v61 (by decide),
    show V9 m ρ c main_v28 = W9 m ρ c (Proc.devRef .tc main_v28) from rfl,
    show V9 m ρ c main_v75 = W9 m ρ c (Proc.devRef .tc main_v75) from rfl,
    agg3, inv3, brow3, ht3] at h
  exact h

theorem ids_at11 : W11 m ρ c (Proc.devRef .tc main_v77) = Bridge.idCol (aI m c) := by
  have h : W11 m ρ c (Proc.devRef .tc main_v77) = shapeCast S100000x1 (W10 m ρ c (Proc.devRef .tc main_arg2)) shapeCasts_S100000_S100000x1 := by
    show StableHlo.after hostOps6 (W10 m ρ c) (Proc.devRef .tc main_v77) = _
    after_results; rfl
  rw [h, k0_10 m ρ c main_arg2 (by decide)]
  funext i
  obtain ⟨p, u, rfl⟩ : ∃ (p : Fin 100000) (u : Fin 1), i = ix2 p u := ⟨i 0, i 1, eq_ix2 i⟩
  exact (Bridge.shapeCast_a_a1_apply (a := 100000) _ shapeCasts_S100000_S100000x1 p u).trans rfl

theorem brow_at13 : W13 m ρ c (Proc.devRef .tc main_v79) = Bridge.rowOf (m ((c : Thread nD τ).loc main_arg10)) := by
  have h : W13 m ρ c (Proc.devRef .tc main_v79) = shapeCast S1x2 (W12 m ρ c (Proc.devRef .tc main_arg10)) shapeCasts_S2_S1x2 := by
    show StableHlo.after hostOps7 (W12 m ρ c) (Proc.devRef .tc main_v79) = _
    after_results; rfl
  rw [h, k0_12 m ρ c main_arg10 (by decide)]
  funext i
  obtain ⟨u, q, rfl⟩ : ∃ (u : Fin 1) (q : Fin 2), i = ix2 u q := ⟨i 0, i 1, eq_ix2 i⟩
  rw [shapeCast_a_1a_apply]; rfl

theorem pooled : W12 m ρ c (Proc.devRef .tc main_v78) = Spec.pool (G := 1024) (W10 m ρ c (Proc.devRef .tc main_v76)) (Bridge.idCol (aI m c)) := by
  have h := (Wreg_arr launch6 (W11 m ρ) _ c _).trans (final6 (V11 m ρ) c)
  rw [show V11 m ρ c main_v76 = W10 m ρ c (Proc.devRef .tc main_v76) from k11 m ρ c main_v76 (by decide),
    show V11 m ρ c main_v77 = W11 m ρ c (Proc.devRef .tc main_v77) from rfl, ids_at11] at h
  exact h

theorem result : W14 m ρ c (Proc.devRef .tc main_v80) = Bridge.net (m ((c : Thread nD τ).loc main_arg0)) (aE m c) (aI m c)
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) := by
  have h := (Wreg_arr launch7 (W13 m ρ) _ c _).trans (final7 (V13 m ρ) c)
  rw [show V13 m ρ c main_v78 = W12 m ρ c (Proc.devRef .tc main_v78) from k13 m ρ c main_v78 (by decide),
    show V13 m ρ c main_arg9 = m ((c : Thread nD τ).loc main_arg9) from k0_13 m ρ c main_arg9 (by decide),
    show V13 m ρ c main_v79 = W13 m ρ c (Proc.devRef .tc main_v79) from rfl,
    pooled, brow_at13, out3, show W7 m ρ c (Proc.devRef .tc main_v60) = _ from out2 m ρ c, show W4 m ρ c (Proc.devRef .tc main_v44) = _ from out1 m ρ c] at h
  exact h

end Cert.KernelIdeal.Val

end
-- ==== Proof.Ref.RefAlg.lean ====
import proofs.«415254_j79637283602865_2_alg».proof.Proof.Gen.ReferenceIdeal.Read
import proofs.«415254_j79637283602865_2_alg».proof.Proof.Spec.Fns

noncomputable section

namespace Cert.ReferenceIdeal.RefVal

open Cert.ReferenceIdeal Cert.ReferenceIdeal.Gen Idealize.ShloMosaic Idealize.ShloMosaic.ValueIdx

/-- An update lands on operand index i exactly when, on every axis, its start plus its window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have ha := congrArg Fin.val (congrFun (Option.some.inj h) a)
      have h0 := (hh a).1
      simp only at ha
      omega
    · rw [dif_neg hh] at h
      exact absurd h (by simp)
  · intro h
    have hh : ∀ a, 0 ≤ d.start j idx a + d.window j a ∧ d.start j idx a + d.window j a < s.size a := by
      intro a
      have := (i a).isLt
      rw [h a]
      omega
    rw [dif_pos hh]
    refine congrArg some (funext fun a => Fin.ext ?_)
    show (d.start j idx a + d.window j a).toNat = (i a).val
    rw [h a]
    omega

/-- A 32-bit word read signed is a natural number below 2^31 exactly when it is that number's word. -/
theorem toInt_eq_natCast_iff (x : BitVec 32) (g : Nat) (hg : g < 2 ^ 31) :
    x.toInt = (g : Int) ↔ x = BitVec.ofNat 32 g := by
  constructor
  · intro h
    have := BitVec.ofInt_toInt (x := x)
    rw [h, BitVec.ofInt_natCast] at this
    exact this.symm
  · intro h
    subst h
    rw [BitVec.toInt_eq_toNat_of_lt (by rw [BitVec.toNat_ofNat]; omega), BitVec.toNat_ofNat]
    congr 1
    omega

/-- Update (t, f) of the pooled sum lands on (g, f') exactly when row t's word read signed is g and f = f'. -/
theorem pool_sum_lands (idx : IVec S100000x1 32) (j : S100000x64.Idx) (i : S1024x64.Idx) :
    scatter_S1024x64_S100000x1_S100000x64_1_0_0_1.resultIdx? j idx = some i ↔
      (idx (ix2 (j 0 : Fin 100000) (0 : Fin 1))).toInt = ((i 0).val : Int) ∧ (j 1).val = (i 1).val := by
  rw [resultIdx?_eq_some_iff]
  have hs0 : scatter_S1024x64_S100000x1_S100000x64_1_0_0_1.start j idx 0 = (idx (ix2 (j 0 : Fin 100000) (0 : Fin 1))).toInt := by
    unfold ScatterDims.start
    rw [dif_pos (show (0 : Fin S1024x64.rank) ∈ scatter_S1024x64_S100000x1_S100000x64_1_0_0_1.scatterDimsToOperandDims by decide)]
    refine congrArg (fun k => (idx k).toInt) (funext fun b => Fin.ext ?_)
    match b with
    | ⟨0, _⟩ => rfl
    | ⟨1, _⟩ => rfl
  have hs1 : scatter_S1024x64_S100000x1_S100000x64_1_0_0_1.start j idx 1 = 0 := by
    unfold ScatterDims.start
    rw [dif_neg (show ¬(1 : Fin S1024x64.rank) ∈ scatter_S1024x64_S100000x1_S100000x64_1_0_0_1.scatterDimsToOperandDims by decide)]
  have hw0 : scatter_S1024x64_S100000x1_S100000x64_1_0_0_1.window j 0 = 0 := by
    unfold ScatterDims.window
    rw [dif_neg (show ¬(0 : Fin S1024x64.rank) ∈ scatter_S1024x64_S100000x1_S100000x64_1_0_0_1.sKept by decide)]
  have hw1 : scatter_S1024x64_S100000x1_S100000x64_1_0_0_1.window j 1 = (j 1).val := by
    unfold ScatterDims.window
    rw [dif_pos (show (1 : Fin S1024x64.rank) ∈ scatter_S1024x64_S100000x1_S100000x64_1_0_0_1.sKept by decide)]
    rfl
  constructor
  · intro h
    have h0 := h 0
    have h1 := h 1
    rw [hs0, hw0] at h0
    rw [hs1, hw1] at h1
    exact ⟨by simpa using h0, by omega⟩
  · rintro ⟨h0, h1⟩ a
    match a with
    | ⟨0, _⟩ => show scatter_S1024x64_S100000x1_S100000x64_1_0_0_1.start j idx 0 + (scatter_S1024x64_S100000x1_S100000x64_1_0_0_1.window j 0 : Int) = _; rw [hs0, hw0, h0]; simp
    | ⟨1, _⟩ => show scatter_S1024x64_S100000x1_S100000x64_1_0_0_1.start j idx 1 + (scatter_S1024x64_S100000x1_S100000x64_1_0_0_1.window j 1 : Int) = _; rw [hs1, hw1, h1]; simp

/-- Update t of the count lands on g exactly when row t's word read signed is g. -/
theorem pool_cnt_lands (idx : IVec S100000x1 32) (j : S100000.Idx) (i : S1024.Idx) :
    scatter_S1024_S100000x1_S100000_n_0_0_1.resultIdx? j idx = some i ↔
      (idx (ix2 (j 0 : Fin 100000) (0 : Fin 1))).toInt = ((i 0).val : Int) := by
  rw [resultIdx?_eq_some_iff]
  have hs0 : scatter_S1024_S100000x1_S100000_n_0_0_1.start j idx 0 = (idx (ix2 (j 0 : Fin 100000) (0 : Fin 1))).toInt := by
    unfold ScatterDims.start
    rw [dif_pos (show (0 : Fin S1024.rank) ∈ scatter_S1024_S100000x1_S100000_n_0_0_1.scatterDimsToOperandDims by decide)]
    refine congrArg (fun k => (idx k).toInt) (funext fun b => Fin.ext ?_)
    match b with
    | ⟨0, _⟩ => rfl
    | ⟨1, _⟩ => rfl
  have hw0 : scatter_S1024_S100000x1_S100000_n_0_0_1.window j 0 = 0 := by
    unfold ScatterDims.window
    rw [dif_neg (show ¬(0 : Fin S1024.rank) ∈ scatter_S1024_S100000x1_S100000_n_0_0_1.sKept by decide)]
  constructor
  · intro h
    have h0 := h 0
    rw [hs0, hw0] at h0
    simpa using h0
  · intro h0 a
    match a with
    | ⟨0, _⟩ => show scatter_S1024_S100000x1_S100000_n_0_0_1.start j idx 0 + (scatter_S1024_S100000x1_S100000_n_0_0_1.window j 0 : Int) = _; rw [hs0, hw0, h0]; simp

/-- The word 0x3F800000 is the real one: mantissa 2^23 at exponent zero. -/
theorem ofBits_one_f32 : Ideal.ofBits .f32 0x3F800000#32 = 1 := by
  have h : ((8388608 : ℝ) * ((2 : ℝ) ^ 23)⁻¹) = 1 := by norm_num
  simp [Ideal.ofBits, Ideal.ieee]
  first
    | exact_mod_cast congrArg (fun r : ℝ => (r : EReal)) h
    | (rw [← EReal.coe_mul]; exact_mod_cast congrArg (fun r : ℝ => (r : EReal)) h)
    | (norm_cast; norm_num)

theorem ids_col (ids : IVec S100000 32) (t : Fin 100000) :
    broadcastInDim S100000x1 ![0] bcast_S100000_S100000x1_0 ids (ix2 t (0 : Fin 1)) = ids (ix1 t) :=
  broadcastInDim_apply _ bcast_S100000_S100000x1_0 ids _ (ix1 t) (fun a => match a with
    | ⟨0, _⟩ => by show t.val = if (100000 : Nat) = 1 then 0 else t.val; rw [if_neg (by decide)])

/-- Of row t's columns only column f' can land on (g, f'), and it does exactly when row t's id is g's word. -/
theorem pool_row (h : S100000x64.Idx → EReal) (ids : IVec S100000 32) (g : Fin 1024) (f' : Fin 64) (t : Fin 100000) :
    (∑ f : Fin 64, if scatter_S1024x64_S100000x1_S100000x64_1_0_0_1.resultIdx? (ix2 t f) (broadcastInDim S100000x1 ![0] bcast_S100000_S100000x1_0 ids) = some (ix2 g f')
        then h (ix2 t f) else 0)
      = Spec.hot (fun k : (Spec.M 100000 1).Idx => ids (ix1 (k 0))) t g.val * h (ix2 t f') := by
  have hg : g.val < 2 ^ 31 := by have := g.isLt; omega
  have hl : ∀ f : Fin 64, scatter_S1024x64_S100000x1_S100000x64_1_0_0_1.resultIdx? (ix2 t f) (broadcastInDim S100000x1 ![0] bcast_S100000_S100000x1_0 ids) = some (ix2 g f')
      ↔ ids (ix1 t) = BitVec.ofNat 32 g.val ∧ f = f' := by
    intro f
    rw [pool_sum_lands]
    show (broadcastInDim S100000x1 ![0] bcast_S100000_S100000x1_0 ids (ix2 t (0 : Fin 1))).toInt = (g.val : Int) ∧ f.val = f'.val ↔ _
    rw [ids_col, toInt_eq_natCast_iff _ _ hg, Fin.ext_iff]
  simp only [hl]
  unfold Spec.hot
  show _ = (if ids (ix1 t) = BitVec.ofNat 32 g.val then (1 : EReal) else 0) * _
  by_cases hc : ids (ix1 t) = BitVec.ofNat 32 g.val
  · rw [if_pos hc, one_mul]
    simp only [hc, true_and]
    rw [Finset.sum_ite_eq' Finset.univ f' (fun f => h (ix2 t f)), if_pos (Finset.mem_univ _)]
  · rw [if_neg hc, zero_mul]
    simp only [hc, false_and, if_false]
    exact Finset.sum_const_zero

/-- The scattered sum at (g, f') adds, over the rows, those of graph g at column f'. -/
theorem pool_sum_apply (h : S100000x64.Idx → EReal) (ids : IVec S100000 32) (g : Fin 1024) (f' : Fin 64) :
    Host.scatterAdd (F := Ideal) (φ := .f32) scatter_S1024x64_S100000x1_S100000x64_1_0_0_1
        (broadcastInDim S1024x64 ![] bcast_S_S1024x64 (constant S_ .f32 0x00000000#32))
        (broadcastInDim S100000x1 ![0] bcast_S100000_S100000x1_0 ids) h (ix2 g f')
      = Spec.poolSum (G := 1024) h (fun k : (Spec.M 100000 1).Idx => ids (ix1 (k 0))) (ix2 g f') := by
  simp only [Host.scatterAdd, Ideal.hostScatterAdd_def, Ideal.hostScatterAdd]
  rw [broadcastInDim_apply _ bcast_S_S1024x64 _ _ ix0 (fun a => a.elim0), constant_apply, Ideal.ofBits_zero_f32, zero_add,
    Finset.sum_filter, sum_idx2]
  unfold Spec.poolSum
  exact Finset.sum_congr rfl fun t _ => pool_row h ids g f' t

theorem sum_idx1 {n : Nat} (f : (⟨1, ![n]⟩ : Shape).Idx → EReal) : ∑ i, f i = ∑ a : Fin n, f (ix1 a) := by
  let e : (⟨1, ![n]⟩ : Shape).Idx ≃ Fin n := ⟨fun j => j 0, ix1, fun j => (eq_ix1 j).symm, fun _ => rfl⟩
  rw [← Equiv.sum_comp e.symm f]
  rfl

/-- The scattered count at g adds one for each row whose id is g's word. -/
theorem pool_cnt_apply (ids : IVec S100000 32) (g : Fin 1024) :
    Host.scatterAdd (F := Ideal) (φ := .f32) scatter_S1024_S100000x1_S100000_n_0_0_1
        (broadcastInDim S1024 ![] bcast_S_S1024 (constant S_ .f32 0x00000000#32))
        (broadcastInDim S100000x1 ![0] bcast_S100000_S100000x1_0 ids)
        (broadcastInDim S100000 ![] bcast_S_S100000 (constant S_ .f32 0x3F800000#32)) (ix1 g)
      = Spec.poolCnt (G := 1024) (fun k : (Spec.M 100000 1).Idx => ids (ix1 (k 0))) (ix2 g (0 : Fin 1)) := by
  have hg : g.val < 2 ^ 31 := by have := g.isLt; omega
  simp only [Host.scatterAdd, Ideal.hostScatterAdd_def, Ideal.hostScatterAdd]
  rw [broadcastInDim_apply _ bcast_S_S1024 _ _ ix0 (fun a => a.elim0), constant_apply, Ideal.ofBits_zero_f32, zero_add,
    Finset.sum_filter, sum_idx1]
  unfold Spec.poolCnt
  refine Finset.sum_congr rfl fun t _ => ?_
  have hl : scatter_S1024_S100000x1_S100000_n_0_0_1.resultIdx? (ix1 t) (broadcastInDim S100000x1 ![0] bcast_S100000_S100000x1_0 ids) = some (ix1 g)
      ↔ ids (ix1 t) = BitVec.ofNat 32 g.val := by
    rw [pool_cnt_lands]
    show (broadcastInDim S100000x1 ![0] bcast_S100000_S100000x1_0 ids (ix2 t (0 : Fin 1))).toInt = (g.val : Int) ↔ _
    rw [ids_col, toInt_eq_natCast_iff _ _ hg]
  rw [broadcastInDim_apply _ bcast_S_S100000 _ _ ix0 (fun a => a.elim0), constant_apply, ofBits_one_f32]
  unfold Spec.hot
  show _ = (if ids (ix1 t) = BitVec.ofNat 32 g.val then (1 : EReal) else 0) * 1
  rw [mul_one]
  exact if_congr hl rfl rfl

theorem hostDivf_apply {s : Shape} (a b : FVec Ideal s .f32) (i : s.Idx) :
    Host.divf a b i = Ideal.div (a i) (b i) := rfl

/-- The scattered sum divided by max (scattered count, 1), the count spread over the columns, is the mean over each graph's rows. -/
theorem pool_eq (h : S100000x64.Idx → EReal) (ids : IVec S100000 32) :
    Host.divf (F := Ideal) (φ := .f32)
      (Host.scatterAdd scatter_S1024x64_S100000x1_S100000x64_1_0_0_1
        (broadcastInDim S1024x64 ![] bcast_S_S1024x64 (constant S_ .f32 0x00000000#32))
        (broadcastInDim S100000x1 ![0] bcast_S100000_S100000x1_0 ids) h)
      (broadcastInDim S1024x64 ![0, 1] bcast_S1024x1_S1024x64_0_1
        (broadcastInDim S1024x1 ![0] bcast_S1024_S1024x1_0
          (maximumf
            (Host.scatterAdd scatter_S1024_S100000x1_S100000_n_0_0_1
              (broadcastInDim S1024 ![] bcast_S_S1024 (constant S_ .f32 0x00000000#32))
              (broadcastInDim S100000x1 ![0] bcast_S100000_S100000x1_0 ids)
              (broadcastInDim S100000 ![] bcast_S_S100000 (constant S_ .f32 0x3F800000#32)))
            (broadcastInDim S1024 ![] bcast_S_S1024 (constant S_ .f32 0x3F800000#32)))))
    = Spec.pool (G := 1024) h (fun k : (Spec.M 100000 1).Idx => ids (ix1 (k 0))) := by
  funext i
  obtain ⟨g, f', rfl⟩ : ∃ (g : Fin 1024) (f' : Fin 64), i = ix2 g f' := ⟨i 0, i 1, eq_ix2 i⟩
  rw [hostDivf_apply, pool_sum_apply,
    broadcastInDim_apply _ bcast_S1024x1_S1024x64_0_1 _ _ (ix2 g (0 : Fin 1)) (fun a => match a with
      | ⟨0, _⟩ => by show g.val = if (1024 : Nat) = 1 then 0 else g.val; rw [if_neg (by decide)]
      | ⟨1, _⟩ => by show (0 : Nat) = if (1 : Nat) = 1 then 0 else f'.val; rw [if_pos rfl]),
    broadcastInDim_apply _ bcast_S1024_S1024x1_0 _ _ (ix1 g) (fun a => match a with
      | ⟨0, _⟩ => by show g.val = if (1024 : Nat) = 1 then 0 else g.val; rw [if_neg (by decide)]),
    maximumf_apply, pool_cnt_apply,
    broadcastInDim_apply _ bcast_S_S1024 _ _ ix0 (fun a => a.elim0), constant_apply]
  rfl

end Cert.ReferenceIdeal.RefVal

end
-- ==== Proof.Ref.RefDot.lean ====
import proofs.«415254_j79637283602865_2_alg».proof.Proof.Gen.ReferenceIdeal.Read
import proofs.«415254_j79637283602865_2_alg».proof.Proof.Spec.Fns
import Idealize.ShloMosaic.Lib.StackMember

noncomputable section

namespace Cert.ReferenceIdeal.RefVal

open Cert.ReferenceIdeal Cert.ReferenceIdeal.Gen Idealize.ShloMosaic Idealize.ShloMosaic.ValueIdx

/-- A product contracting the left operand's columns with the right operand's rows, no batch axes, is the specification's matrix
    product: read at (a, n) it is the sum over the contracted coordinate k of left (a, k) times right (k, n). -/
theorem plain_eq {A K N : ℕ} (x : (Spec.M A K).Idx → EReal) (w : (Spec.M K N).Idx → EReal) :
    Host.dotGeneral (F := Ideal) (φ₁ := .f32) (φ₂ := .f32) (DotDims.plain A K N) none x w = Spec.mm x w :=
  funext fun i => (congrArg _ (eq_ix2 i)).trans (StackMember.dotGeneral_plain_apply none x w (i 0) (i 1))

theorem dot_128_eq (x : S100000x128.Idx → EReal) (w : S128x64.Idx → EReal) :
    Host.dotGeneral (F := Ideal) (φ₁ := .f32) (φ₂ := .f32) dot_S100000x128_S128x64_S100000x64_1_0_0_1_n_n none x w = Spec.mm x w :=
  plain_eq x w

theorem dot_64_eq (x : S100000x64.Idx → EReal) (w : S64x64.Idx → EReal) :
    Host.dotGeneral (F := Ideal) (φ₁ := .f32) (φ₂ := .f32) dot_S100000x64_S64x64_S100000x64_1_0_0_1_n_n none x w = Spec.mm x w :=
  plain_eq x w

/-- The bias spread along a unit row axis and then down the rows, read at (r, c): the bias of column c. -/
theorem bias2_apply (b : S2.Idx → EReal) (r : Fin 1024) (c : Fin 2) :
    broadcastInDim S1024x2 ![0, 1] bcast_S1x2_S1024x2_0_1 (broadcastInDim S1x2 ![1] bcast_S2_S1x2_1 b) (ix2 r c)
      = b (ix1 c) := by
  rw [broadcastInDim_apply _ bcast_S1x2_S1024x2_0_1 _ _ (ix2 (0 : Fin 1) c) (fun a => match a with
      | ⟨0, _⟩ => by show (0 : Nat) = if (1 : Nat) = 1 then 0 else r.val; rw [if_pos rfl]
      | ⟨1, _⟩ => by show c.val = if (2 : Nat) = 1 then 0 else c.val; rw [if_neg (by decide)]),
    broadcastInDim_apply _ bcast_S2_S1x2_1 _ _ (ix1 c) (fun a => match a with
      | ⟨0, _⟩ => by show c.val = if (2 : Nat) = 1 then 0 else c.val; rw [if_neg (by decide)])]

theorem mmb_eq (x : S1024x64.Idx → EReal) (w : S64x2.Idx → EReal) (b : S2.Idx → EReal) :
    addf (F := Ideal) (φ := .f32)
      (Host.dotGeneral (φ₁ := .f32) (φ₂ := .f32) dot_S1024x64_S64x2_S1024x2_1_0_0_1_n_n none x w)
      (broadcastInDim S1024x2 ![0, 1] bcast_S1x2_S1024x2_0_1 (broadcastInDim S1x2 ![1] bcast_S2_S1x2_1 b))
    = Spec.mmb x w (fun k : (Spec.M 1 2).Idx => b (ix1 (k 1))) := by
  funext i
  obtain ⟨r, c, rfl⟩ : ∃ (r : Fin 1024) (c : Fin 2), i = ix2 r c := ⟨i 0, i 1, eq_ix2 i⟩
  rw [addf_apply, bias2_apply]
  exact congrArg (· + _) (congrFun (plain_eq x w) _)

end Cert.ReferenceIdeal.RefVal

end
-- ==== Proof.Ref.RefLayer.lean ====
import proofs.«415254_j79637283602865_2_alg».proof.Proof.Ref.RefAlg

noncomputable section

namespace Cert.ReferenceIdeal.RefVal

open Cert.ReferenceIdeal Cert.ReferenceIdeal.Gen Idealize.ShloMosaic Idealize.ShloMosaic.ValueIdx

/-- A scalar word spread over an array reads, at every index, that word's value. -/
theorem splat_apply {s : Shape} (h : S_.BroadcastsInDim s (![] : Fin 0 → Fin s.rank)) (w : BitVec 32) (i : s.Idx) :
    broadcastInDim s ![] h (constant (F := Ideal) S_ .f32 w) i = Ideal.ofBits .f32 w := by
  rw [broadcastInDim_apply _ h _ i ix0 (fun a => a.elim0), constant_apply]

/-- Scattering ones onto zeros leaves a natural number at every index: the number of updates landing there. -/
theorem scatter_ones_nat {s si su : Shape} (d : ScatterDims s si su) {w : Nat} (x : FVec Ideal s .f32)
    (idx : IVec si w) (upd : FVec Ideal su .f32) (i : s.Idx) (hx : x i = 0) (hu : ∀ j, upd j = 1) :
    ∃ c : ℕ, Host.scatterAdd (F := Ideal) d x idx upd i = (c : EReal) := by
  show ∃ c : ℕ, x i + ∑ j ∈ Finset.univ.filter (fun j => d.resultIdx? j idx = some i), upd j = (c : EReal)
  rw [hx, zero_add, Finset.sum_congr rfl (fun j _ => hu j), Finset.sum_const, nsmul_one]
  exact ⟨_, rfl⟩

/-- Whatever the edge words, the degree at a node, the scattered ones plus one, is a nonzero real: the number of edges landing on
    the node, plus one. -/
theorem deg_real (idx : IVec S1600000x1 32) (i : S100000.Idx) :
    ∃ r : ℝ, r ≠ 0 ∧
      addf (F := Ideal) (φ := .f32)
        (Host.scatterAdd scatter_S100000_S1600000x1_S1600000_n_0_0_1
          (broadcastInDim S100000 ![] bcast_S_S100000 (constant S_ .f32 0x00000000#32)) idx
          (broadcastInDim S1600000 ![] bcast_S_S1600000 (constant S_ .f32 0x3F800000#32)))
        (broadcastInDim S100000 ![] bcast_S_S100000 (constant S_ .f32 0x3F800000#32)) i = (r : EReal) := by
  obtain ⟨c, hc⟩ := scatter_ones_nat scatter_S100000_S1600000x1_S1600000_n_0_0_1
    (broadcastInDim S100000 ![] bcast_S_S100000 (constant (F := Ideal) S_ .f32 0x00000000#32)) idx
    (broadcastInDim S1600000 ![] bcast_S_S1600000 (constant (F := Ideal) S_ .f32 0x3F800000#32)) i
    ((splat_apply bcast_S_S100000 _ i).trans Ideal.ofBits_zero_f32) fun j => (splat_apply bcast_S_S1600000 _ j).trans ofBits_one_f32
  rw [addf_apply, hc, splat_apply, ofBits_one_f32]
  exact ⟨(c : ℝ) + 1, by positivity, by rw [EReal.coe_add, EReal.coe_natCast, EReal.coe_one]⟩

/-- Division by a nonzero real is multiplication by the quotient of the word of one by it. -/
theorem div_eq_mul_one_div (x d : EReal) (hd : ∃ r : ℝ, r ≠ 0 ∧ d = r) :
    Ideal.div x d = x * Ideal.div (Ideal.ofBits .f32 0x3F800000#32) d := by
  obtain ⟨r, hr, rfl⟩ := hd
  rw [ofBits_one_f32, Ideal.div_coe hr, Ideal.div_coe hr, one_mul]

/-- The degree spread along the columns, read at (a, n): the degree of row a. -/
theorem deg_cols_apply (deg : S100000.Idx → EReal) (a : Fin 100000) (n : Fin 64) :
    broadcastInDim S100000x64 ![0, 1] bcast_S100000x1_S100000x64_0_1
        (broadcastInDim S100000x1 ![0] bcast_S100000_S100000x1_0 deg) (ix2 a n) = deg (ix1 a) := by
  rw [broadcastInDim_apply _ bcast_S100000x1_S100000x64_0_1 _ _ (ix2 a (0 : Fin 1)) (fun c => match c with
      | ⟨0, _⟩ => by show a.val = if (100000 : Nat) = 1 then 0 else a.val; rw [if_neg (by decide)]
      | ⟨1, _⟩ => by show (0 : Nat) = if (1 : Nat) = 1 then 0 else n.val; rw [if_pos rfl]),
    broadcastInDim_apply _ bcast_S100000_S100000x1_0 _ _ (ix1 a) (fun c => match c with
      | ⟨0, _⟩ => by show a.val = if (100000 : Nat) = 1 then 0 else a.val; rw [if_neg (by decide)])]

/-- The bias spread down the rows, read at (a, n): the bias of column n. -/
theorem bias_rows_apply (b : S64.Idx → EReal) (a : Fin 100000) (n : Fin 64) :
    broadcastInDim S100000x64 ![0, 1] bcast_S1x64_S100000x64_0_1
        (broadcastInDim S1x64 ![1] bcast_S64_S1x64_1 b) (ix2 a n) = b (ix1 n) := by
  rw [broadcastInDim_apply _ bcast_S1x64_S100000x64_0_1 _ _ (ix2 (0 : Fin 1) n) (fun c => match c with
      | ⟨0, _⟩ => by show (0 : Nat) = if (1 : Nat) = 1 then 0 else a.val; rw [if_pos rfl]
      | ⟨1, _⟩ => by show n.val = if (64 : Nat) = 1 then 0 else n.val; rw [if_neg (by decide)]),
    broadcastInDim_apply _ bcast_S64_S1x64_1 _ _ (ix1 n) (fun c => match c with
      | ⟨0, _⟩ => by show n.val = if (64 : Nat) = 1 then 0 else n.val; rw [if_neg (by decide)])]

/-- The reference's epilogue, the aggregate plus the features divided by the degree, plus the bias, maximum with zero, is the
    specification's with the column of reciprocal degrees and the bias row: dividing by a nonzero real multiplies by its reciprocal. -/
theorem comb_eq (agg ht : S100000x64.Idx → EReal) (deg : S100000.Idx → EReal) (b : S64.Idx → EReal)
    (hdeg : ∀ i, ∃ r : ℝ, r ≠ 0 ∧ deg i = r) :
    maximumf (F := Ideal) (φ := .f32)
      (addf
        (addf agg
          (Host.divf ht
            (broadcastInDim S100000x64 ![0, 1] bcast_S100000x1_S100000x64_0_1
              (broadcastInDim S100000x1 ![0] bcast_S100000_S100000x1_0 deg))))
        (broadcastInDim S100000x64 ![0, 1] bcast_S1x64_S100000x64_0_1 (broadcastInDim S1x64 ![1] bcast_S64_S1x64_1 b)))
      (broadcastInDim S100000x64 ![] bcast_S_S100000x64 (constant S_ .f32 0x00000000#32))
    = Spec.comb agg ht
        (fun k : (Spec.M 100000 1).Idx => Ideal.div (Ideal.ofBits .f32 0x3F800000#32) (deg (ix1 (k 0))))
        (fun k : (Spec.M 1 64).Idx => b (ix1 (k 1))) := by
  funext i
  obtain ⟨a, n, rfl⟩ : ∃ (a : Fin 100000) (n : Fin 64), i = ix2 a n := ⟨i 0, i 1, eq_ix2 i⟩
  rw [maximumf_apply, addf_apply, addf_apply, hostDivf_apply, deg_cols_apply, bias_rows_apply, splat_apply,
    div_eq_mul_one_div _ _ (hdeg (ix1 a))]
  rfl

end Cert.ReferenceIdeal.RefVal

end
-- ==== Proof.Bridge.RefNet.lean ====
/- The reference computes the network: three times "product, neighbour sum, divide the product by the degree, add both and
   the bias, clip at zero", then the per-graph sums divided by max (count, 1), then a product plus bias. -/
import proofs.«415254_j79637283602865_2_alg».proof.Proof.Bridge.Shared
import proofs.«415254_j79637283602865_2_alg».proof.Proof.Ref.RefAlg
import proofs.«415254_j79637283602865_2_alg».proof.Proof.Ref.RefDot
import proofs.«415254_j79637283602865_2_alg».proof.Proof.Ref.RefLayer

set_option maxRecDepth 16384

noncomputable section

namespace Cert.Bridge

open Idealize.ShloMosaic Idealize.ShloMosaic.ValueIdx Cert.ReferenceIdeal Cert.ReferenceIdeal.Gen Cert.ReferenceIdeal.Read Cert.ReferenceIdeal.RefVal

/-- A reference layer from its transformed features `ht = h · W`: dividing by the degree, a positive whole number, is
    multiplying by its reciprocal. -/
theorem layer_of {K : Nat} (h : (Spec.M 100000 K).Idx → EReal) (W : (Spec.M K 64).Idx → EReal) (b : S64.Idx → EReal) (x1 : EI)
    (ht : Hm) (hht : ht = Spec.mm h W) :
    maximumf (F := Ideal) (φ := .f32) (addf (F := Ideal) (φ := .f32) (addf (F := Ideal) (φ := .f32) (agg ht x1)
      (Host.divf (F := Ideal) (φ := .f32) ht (broadcastInDim S100000x64 ![0, 1] bcast_S100000x1_S100000x64_0_1 (broadcastInDim S100000x1 ![0] bcast_S100000_S100000x1_0 (val_main_v9 (F := Ideal) x1)))))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32)) = layer h W b x1 := by
  subst hht
  rw [comb_eq _ _ (val_main_v9 (F := Ideal) x1) _ (fun i => deg_real (val_main_v6 (F := Ideal) x1) i)]
  rfl

theorem ref_layer1 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) :
    val_main_v47 (F := Ideal) x0 x1 x3 x4 = layer x0 x3 x4 x1 :=
  layer_of x0 x3 x4 x1 _ (dot_128_eq x0 x3)

theorem ref_layer2 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v69 (F := Ideal) x0 x1 x3 x4 x5 x6 = layer (val_main_v47 (F := Ideal) x0 x1 x3 x4) x5 x6 x1 :=
  layer_of _ x5 x6 x1 _ (dot_64_eq _ x5)

theorem ref_layer3 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v91 (F := Ideal) x0 x1 x3 x4 x5 x6 x7 x8 = layer (val_main_v69 (F := Ideal) x0 x1 x3 x4 x5 x6) x7 x8 x1 :=
  layer_of _ x7 x8 x1 _ (dot_64_eq _ x7)

theorem ref_pool (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v103 (F := Ideal) x0 x1 x2 x3 x4 x5 x6 x7 x8
      = Spec.pool (G := 1024) (val_main_v91 (F := Ideal) x0 x1 x3 x4 x5 x6 x7 x8) (idCol x2) :=
  pool_eq (val_main_v91 (F := Ideal) x0 x1 x3 x4 x5 x6 x7 x8) x2

theorem ref_net (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x2, .f32⟩ : BufTy).Contents (Elt Ideal)) (x10 : (⟨S2, .f32⟩ : BufTy).Contents (Elt Ideal)) :
    val_main_v107 (F := Ideal) x0 x1 x2 x3 x4 x5 x6 x7 x8 x9 x10 = net x0 x1 x2 x3 x4 x5 x6 x7 x8 x9 x10 := by
  have e : val_main_v107 (F := Ideal) x0 x1 x2 x3 x4 x5 x6 x7 x8 x9 x10
      = Spec.mmb (val_main_v103 (F := Ideal) x0 x1 x2 x3 x4 x5 x6 x7 x8) x9 (rowOf x10) :=
    mmb_eq (val_main_v103 (F := Ideal) x0 x1 x2 x3 x4 x5 x6 x7 x8) x9 x10
  rw [e, ref_pool, ref_layer3, ref_layer2, ref_layer1]
  rfl

end Cert.Bridge

end
-- ==== Proof.lean ====
/- A three-layer graph convolution with a mean pool per graph and a final linear layer, as eight kernel regions with
   host operations between them, against the plain reference, over the extended reals. A layer is
   h ↦ max (agg (h · W) + (h · W) · (1 / deg) + b, 0) in the kernel program and max (agg (h · W) + (h · W) / deg + b, 0)
   in the reference: equal because deg is a positive whole number. -/
import proofs.«415254_j79637283602865_2_alg».proof.Defs
import proofs.«415254_j79637283602865_2_alg».proof.Proof.Gen.Kernel
import proofs.«415254_j79637283602865_2_alg».proof.Proof.Gen.KernelIdeal
import proofs.«415254_j79637283602865_2_alg».proof.Proof.Gen.ReferenceIdeal
import proofs.«415254_j79637283602865_2_alg».proof.Proof.Gen.Pre_finite_inputs
import proofs.«415254_j79637283602865_2_alg».proof.Proof.Gen.ReferenceIdeal.Run
import proofs.«415254_j79637283602865_2_alg».proof.Proof.FrB.Run
import proofs.«415254_j79637283602865_2_alg».proof.Proof.FrI.Run
import proofs.«415254_j79637283602865_2_alg».proof.Proof.Val.Chain
import proofs.«415254_j79637283602865_2_alg».proof.Proof.Bridge.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Fr in
/-- Over the extended reals the kernel program ends with the network's value of its arguments in its result buffer, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v80) = Cert.Bridge.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ ArgsKept m c r.2.mem) :=
  (θ_run _ _ _).mono (fun r h c =>
    ⟨(h c _ (mem_uc main_v80 (by decide))).trans (Cert.KernelIdeal.Val.result m ρ c), args_kept m ρ c (h c)⟩)
    (run_all (F := Ideal) m ρ)

/-- From memories that agree on the arguments both programs end with the network's value of those arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v107_eq, Cert.Bridge.ref_net, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
